-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v45)) (v1 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_v50) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S320000 : Shape := ⟨1, ![320000]⟩
abbrev S320000x3 : Shape := ⟨2, ![320000, 3]⟩
abbrev S320000x20 : Shape := ⟨2, ![320000, 20]⟩
abbrev S10000x128 : Shape := ⟨2, ![10000, 128]⟩
abbrev S10000x128x3 : Shape := ⟨3, ![10000, 128, 3]⟩
abbrev S128x128 : Shape := ⟨2, ![128, 128]⟩
abbrev S128 : Shape := ⟨1, ![128]⟩
abbrev S128x384 : Shape := ⟨2, ![128, 384]⟩
abbrev S384 : Shape := ⟨1, ![384]⟩
abbrev S20x384 : Shape := ⟨2, ![20, 384]⟩
abbrev S_ : Shape := ⟨0, ![]⟩
abbrev S10000 : Shape := ⟨1, ![10000]⟩
abbrev S320000x1 : Shape := ⟨2, ![320000, 1]⟩

class Facts : Prop where
  bcast_S_S320000x3 : S_.BroadcastsInDim S320000x3 (![] : Fin 0 → Fin S320000x3.rank)
  reducesTo_S320000x3_S_d0_1 : S320000x3.ReducesTo [0, 1] S_
  h_S_ : 0 < S_.numel
  bcast_S_S320000 : S_.BroadcastsInDim S320000 (![] : Fin 0 → Fin S320000.rank)
  reducesTo_S320000_S_d0 : S320000.ReducesTo [0] S_
  bcast_S_S320000x20 : S_.BroadcastsInDim S320000x20 (![] : Fin 0 → Fin S320000x20.rank)
  reducesTo_S320000x20_S_d0_1 : S320000x20.ReducesTo [0, 1] S_
  bcast_S_S10000x128 : S_.BroadcastsInDim S10000x128 (![] : Fin 0 → Fin S10000x128.rank)
  reducesTo_S10000x128_S_d0_1 : S10000x128.ReducesTo [0, 1] S_
  bcast_S_S10000x128x3 : S_.BroadcastsInDim S10000x128x3 (![] : Fin 0 → Fin S10000x128x3.rank)
  reducesTo_S10000x128x3_S_d0_1_2 : S10000x128x3.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_
  bcast_S_S384 : S_.BroadcastsInDim S384 (![] : Fin 0 → Fin S384.rank)
  reducesTo_S384_S_d0 : S384.ReducesTo [0] S_
  bcast_S_S20x384 : S_.BroadcastsInDim S20x384 (![] : Fin 0 → Fin S20x384.rank)
  reducesTo_S20x384_S_d0_1 : S20x384.ReducesTo [0, 1] S_
  bcast_S_S10000 : S_.BroadcastsInDim S10000 (![] : Fin 0 → Fin S10000.rank)
  bcast_S320000_S320000x1_0 : S320000.BroadcastsInDim S320000x1 (![0] : Fin 1 → Fin S320000x1.rank)
  reducesTo_S10000_S_d0 : S10000.ReducesTo [0] S_
  scatter_S10000_S320000x1_S320000_n_0_0_1_wf : ScatterDims.WF S10000 S320000x1 S320000 [] [0] [0] 1

variable [Facts]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def fn_part4 {F : FTy → Type} [FloatOps F] (main_v61 : IVec S_ 1) (main_v65 : FVec F S10000 .f32) (main_v66 : FVec F S10000 .f32) : IVec S_ 1 :=
  let main_v67 : IVec S10000 1 := cmpf .ogt main_v65 main_v66
  let main_c_27 : IVec S_ 1 := constantI S_ 1 1#1
  let main_v68 : IVec S_ 1 := (fun x v => Host.reduce IntOp.andi x v reducesTo_S10000_S_d0 h_S_) main_v67 main_c_27
  let main_v69 : IVec S_ 1 := andi main_v61 main_v68
  main_v69

def fn_part3 {F : FTy → Type} [FloatOps F] (main_arg0 : IVec S320000 32) (main_arg1 : IVec S320000 32) (main_v48 : IVec S_ 1) (main_v49 : FVec F S384 .f32) (main_v50 : FVec F S384 .f32) : IVec S_ 1 :=
  let main_v51 : IVec S384 1 := cmpf .olt main_v49 main_v50
  let main_c_19 : IVec S_ 1 := constantI S_ 1 1#1
  let main_v52 : IVec S_ 1 := (fun x v => Host.reduce IntOp.andi x v reducesTo_S384_S_d0 h_S_) main_v51 main_c_19
  let main_v53 : IVec S_ 1 := andi main_v48 main_v52
  let main_c_20 : IVec S_ 32 := constantI S_ 32 0#32
  let main_v54 : IVec S320000 32 := broadcastInDim S320000 ![] bcast_S_S320000 main_c_20
  let main_v55 : IVec S320000 1 := cmpi .sge main_arg1 main_v54
  let main_c_21 : IVec S_ 1 := constantI S_ 1 1#1
  let main_v56 : IVec S_ 1 := (fun x v => Host.reduce IntOp.andi x v reducesTo_S320000_S_d0 h_S_) main_v55 main_c_21
  let main_v57 : IVec S_ 1 := andi main_v53 main_v56
  let main_c_22 : IVec S_ 32 := constantI S_ 32 10000#32
  let main_v58 : IVec S320000 32 := broadcastInDim S320000 ![] bcast_S_S320000 main_c_22
  let main_v59 : IVec S320000 1 := cmpi .slt main_arg1 main_v58
  let main_c_23 : IVec S_ 1 := constantI S_ 1 1#1
  let main_v60 : IVec S_ 1 := (fun x v => Host.reduce IntOp.andi x v reducesTo_S320000_S_d0 h_S_) main_v59 main_c_23
  let main_v61 : IVec S_ 1 := andi main_v57 main_v60
  let main_cst_24 : FVec F S_ .f32 := constant S_ .f32 0x3F800000#32
  let main_v62 : FVec F S320000 .f32 := broadcastInDim S320000 ![] bcast_S_S320000 main_cst_24
  let main_cst_25 : FVec F S_ .f32 := constant S_ .f32 0x00000000#32
  let main_v63 : FVec F S10000 .f32 := broadcastInDim S10000 ![] bcast_S_S10000 main_cst_25
  let main_v64 : IVec S320000x1 32 := broadcastInDim S320000x1 ![0] bcast_S320000_S320000x1_0 main_arg0
  let main_v65 : FVec F S10000 .f32 := (fun x i u => Host.scatterAdd scatter_S10000_S320000x1_S320000_n_0_0_1 x i u) main_v63 main_v64 main_v62
  let main_cst_26 : FVec F S_ .f32 := constant S_ .f32 0x00000000#32
  let main_v66 : FVec F S10000 .f32 := broadcastInDim S10000 ![] bcast_S_S10000 main_cst_26
  fn_part4 (F := F) main_v61 main_v65 main_v66

def fn_part2 {F : FTy → Type} [FloatOps F] (main_arg0 : IVec S320000 32) (main_arg1 : IVec S320000 32) (main_arg9 : FVec F S128x384 .f32) (main_arg10 : FVec F S384 .f32) (main_arg11 : FVec F S20x384 .f32) (main_arg12 : FVec F S384 .f32) (main_v33 : IVec S_ 1) : IVec S_ 1 :=
  let main_v34 : FVec F S128x384 .f32 := Host.absf main_arg9
  let main_cst_12 : FVec F S_ .f32 := constant S_ .f32 0x7F800000#32
  let main_v35 : FVec F S128x384 .f32 := broadcastInDim S128x384 ![] bcast_S_S128x384 main_cst_12
  let main_v36 : IVec S128x384 1 := cmpf .olt main_v34 main_v35
  let main_c_13 : IVec S_ 1 := constantI S_ 1 1#1
  let main_v37 : IVec S_ 1 := (fun x v => Host.reduce IntOp.andi x v reducesTo_S128x384_S_d0_1 h_S_) main_v36 main_c_13
  let main_v38 : IVec S_ 1 := andi main_v33 main_v37
  let main_v39 : FVec F S384 .f32 := Host.absf main_arg10
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S20x384 .f32 := Host.absf main_arg11
  let main_cst_16 : FVec F S_ .f32 := constant S_ .f32 0x7F800000#32
  let main_v45 : FVec F S20x384 .f32 := broadcastInDim S20x384 ![] bcast_S_S20x384 main_cst_16
  let main_v46 : IVec S20x384 1 := cmpf .olt main_v44 main_v45
  let main_c_17 : IVec S_ 1 := constantI S_ 1 1#1
  let main_v47 : IVec S_ 1 := (fun x v => Host.reduce IntOp.andi x v reducesTo_S20x384_S_d0_1 h_S_) main_v46 main_c_17
  let main_v48 : IVec S_ 1 := andi main_v43 main_v47
  let main_v49 : FVec F S384 .f32 := Host.absf main_arg12
  let main_cst_18 : FVec F S_ .f32 := constant S_ .f32 0x7F800000#32
  let main_v50 : FVec F S384 .f32 := broadcastInDim S384 ![] bcast_S_S384 main_cst_18
  fn_part3 (F := F) main_arg0 main_arg1 main_v48 main_v49 main_v50

def fn_part1 {F : FTy → Type} [FloatOps F] (main_arg0 : IVec S320000 32) (main_arg1 : IVec S320000 32) (main_arg6 : FVec F S10000x128x3 .f32) (main_arg7 : FVec F S128x128 .f32) (main_arg8 : FVec F S128 .f32) (main_arg9 : FVec F S128x384 .f32) (main_arg10 : FVec F S384 .f32) (main_arg11 : FVec F S20x384 .f32) (main_arg12 : FVec F S384 .f32) (main_v13 : IVec S_ 1) (main_v16 : IVec S10000x128 1) : IVec S_ 1 :=
  let main_c_5 : IVec S_ 1 := constantI S_ 1 1#1
  let main_v17 : IVec S_ 1 := (fun x v => Host.reduce IntOp.andi x v reducesTo_S10000x128_S_d0_1 h_S_) main_v16 main_c_5
  let main_v18 : IVec S_ 1 := andi main_v13 main_v17
  let main_v19 : FVec F S10000x128x3 .f32 := Host.absf main_arg6
  let main_cst_6 : FVec F S_ .f32 := constant S_ .f32 0x7F800000#32
  let main_v20 : FVec F S10000x128x3 .f32 := broadcastInDim S10000x128x3 ![] bcast_S_S10000x128x3 main_cst_6
  let main_v21 : IVec S10000x128x3 1 := cmpf .olt main_v19 main_v20
  let main_c_7 : IVec S_ 1 := constantI S_ 1 1#1
  let main_v22 : IVec S_ 1 := (fun x v => Host.reduce IntOp.andi x v reducesTo_S10000x128x3_S_d0_1_2 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg0 main_arg1 main_arg9 main_arg10 main_arg11 main_arg12 main_v33

def fn {F : FTy → Type} [FloatOps F] (main_arg0 : IVec S320000 32) (main_arg1 : IVec S320000 32) (main_arg2 : FVec F S320000x3 .f32) (main_arg3 : FVec F S320000 .f32) (main_arg4 : FVec F S320000x20 .f32) (main_arg5 : FVec F S10000x128 .f32) (main_arg6 : FVec F S10000x128x3 .f32) (main_arg7 : FVec F S128x128 .f32) (main_arg8 : FVec F S128 .f32) (main_arg9 : FVec F S128x384 .f32) (main_arg10 : FVec F S384 .f32) (main_arg11 : FVec F S20x384 .f32) (main_arg12 : FVec F S384 .f32) : IVec S_ 1 :=
  let main_v0 : FVec F S320000x3 .f32 := Host.absf main_arg2
  let main_cst : FVec F S_ .f32 := constant S_ .f32 0x7F800000#32
  let main_v1 : FVec F S320000x3 .f32 := broadcastInDim S320000x3 ![] bcast_S_S320000x3 main_cst
  let main_v2 : IVec S320000x3 1 := cmpf .olt main_v0 main_v1
  let main_c : IVec S_ 1 := constantI S_ 1 1#1
  let main_v3 : IVec S_ 1 := (fun x v => Host.reduce IntOp.andi x v reducesTo_S320000x3_S_d0_1 h_S_) main_v2 main_c
  let main_v4 : FVec F S320000 .f32 := Host.absf main_arg3
  let main_cst_0 : FVec F S_ .f32 := constant S_ .f32 0x7F800000#32
  let main_v5 : FVec F S320000 .f32 := broadcastInDim S320000 ![] bcast_S_S320000 main_cst_0
  let main_v6 : IVec S320000 1 := cmpf .olt main_v4 main_v5
  let main_c_1 : IVec S_ 1 := constantI S_ 1 1#1
  let main_v7 : IVec S_ 1 := (fun x v => Host.reduce IntOp.andi x v reducesTo_S320000_S_d0 h_S_) main_v6 main_c_1
  let main_v8 : IVec S_ 1 := andi main_v3 main_v7
  let main_v9 : FVec F S320000x20 .f32 := Host.absf main_arg4
  let main_cst_2 : FVec F S_ .f32 := constant S_ .f32 0x7F800000#32
  let main_v10 : FVec F S320000x20 .f32 := broadcastInDim S320000x20 ![] bcast_S_S320000x20 main_cst_2
  let main_v11 : IVec S320000x20 1 := cmpf .olt main_v9 main_v10
  let main_c_3 : IVec S_ 1 := constantI S_ 1 1#1
  let main_v12 : IVec S_ 1 := (fun x v => Host.reduce IntOp.andi x v reducesTo_S320000x20_S_d0_1 h_S_) main_v11 main_c_3
  let main_v13 : IVec S_ 1 := andi main_v8 main_v12
  let main_v14 : FVec F S10000x128 .f32 := Host.absf main_arg5
  let main_cst_4 : FVec F S_ .f32 := constant S_ .f32 0x7F800000#32
  let main_v15 : FVec F S10000x128 .f32 := broadcastInDim S10000x128 ![] bcast_S_S10000x128 main_cst_4
  let main_v16 : IVec S10000x128 1 := cmpf .olt main_v14 main_v15
  fn_part1 (F := F) main_arg0 main_arg1 main_arg6 main_arg7 main_arg8 main_arg9 main_arg10 main_arg11 main_arg12 main_v13 main_v16
-- ==== Kernel.lean ====
abbrev S320000 : Shape := ⟨1, ![320000]⟩
abbrev S320000x3 : Shape := ⟨2, ![320000, 3]⟩
abbrev S320000x20 : Shape := ⟨2, ![320000, 20]⟩
abbrev S10000x128 : Shape := ⟨2, ![10000, 128]⟩
abbrev S10000x128x3 : Shape := ⟨3, ![10000, 128, 3]⟩
abbrev S128x128 : Shape := ⟨2, ![128, 128]⟩
abbrev S128 : Shape := ⟨1, ![128]⟩
abbrev S128x384 : Shape := ⟨2, ![128, 384]⟩
abbrev S384 : Shape := ⟨1, ![384]⟩
abbrev S20x384 : Shape := ⟨2, ![20, 384]⟩
abbrev S1x128 : Shape := ⟨2, ![1, 128]⟩
abbrev S1x384 : Shape := ⟨2, ![1, 384]⟩
abbrev S10000x384 : Shape := ⟨2, ![10000, 384]⟩
abbrev S2000x128 : Shape := ⟨2, ![2000, 128]⟩
abbrev S2000x384 : Shape := ⟨2, ![2000, 384]⟩
abbrev S10000x128x1 : Shape := ⟨3, ![10000, 128, 1]⟩
abbrev S10000x768 : Shape := ⟨2, ![10000, 768]⟩
abbrev S320000x1 : Shape := ⟨2, ![320000, 1]⟩
abbrev S10000 : Shape := ⟨1, ![10000]⟩
abbrev S1x10000 : Shape := ⟨2, ![1, 10000]⟩
abbrev S2x10000x512 : Shape := ⟨3, ![2, 10000, 512]⟩
abbrev S128x1 : Shape := ⟨2, ![128, 1]⟩
abbrev S128x3 : Shape := ⟨2, ![128, 3]⟩
abbrev S128x20 : Shape := ⟨2, ![128, 20]⟩
abbrev S1x10000x512 : Shape := ⟨3, ![1, 10000, 512]⟩
abbrev S10000x512 : Shape := ⟨2, ![10000, 512]⟩
abbrev S128x10000 : Shape := ⟨2, ![128, 10000]⟩
abbrev S128x768 : Shape := ⟨2, ![128, 768]⟩
abbrev S128x256 : Shape := ⟨2, ![128, 256]⟩
abbrev S10000x256 : Shape := ⟨2, ![10000, 256]⟩
abbrev S1x10000x256 : Shape := ⟨3, ![1, 10000, 256]⟩
abbrev S_ : Shape := ⟨0, ![]⟩
abbrev S10000x1 : Shape := ⟨2, ![10000, 1]⟩

abbrev nBuf : Space → Nat
  | .hbm => 70
  | .vmem => 24
  | .smem => 0
  | _ => 0

abbrev bufTy : (tb : Table) → Fin (tcTables nBuf tb) → BufTy
  | .hbm, ⟨0, _⟩ => ⟨S320000, .i32⟩
  | .hbm, ⟨1, _⟩ => ⟨S320000, .i32⟩
  | .hbm, ⟨2, _⟩ => ⟨S320000x3, .f32⟩
  | .hbm, ⟨3, _⟩ => ⟨S320000, .f32⟩
  | .hbm, ⟨4, _⟩ => ⟨S320000x20, .f32⟩
  | .hbm, ⟨5, _⟩ => ⟨S10000x128, .f32⟩
  | .hbm, ⟨6, _⟩ => ⟨S10000x128x3, .f32⟩
  | .hbm, ⟨7, _⟩ => ⟨S128x128, .f32⟩
  | .hbm, ⟨8, _⟩ => ⟨S128, .f32⟩
  | .hbm, ⟨9, _⟩ => ⟨S128x384, .f32⟩
  | .hbm, ⟨10, _⟩ => ⟨S384, .f32⟩
  | .hbm, ⟨11, _⟩ => ⟨S20x384, .f32⟩
  | .hbm, ⟨12, _⟩ => ⟨S384, .f32⟩
  | .hbm, ⟨13, _⟩ => ⟨S1x128, .f32⟩
  | .hbm, ⟨14, _⟩ => ⟨S1x384, .f32⟩
  | .hbm, ⟨15, _⟩ => ⟨S1x384, .f32⟩
  | .hbm, ⟨16, _⟩ => ⟨S10000x384, .bf16⟩
  | .hbm, ⟨17, _⟩ => ⟨S10000x128x1, .f32⟩
  | .hbm, ⟨18, _⟩ => ⟨S10000x128, .f32⟩
  | .hbm, ⟨19, _⟩ => ⟨S10000x128, .bf16⟩
  | .hbm, ⟨20, _⟩ => ⟨S10000x128x1, .f32⟩
  | .hbm, ⟨21, _⟩ => ⟨S10000x128, .f32⟩
  | .hbm, ⟨22, _⟩ => ⟨S10000x128, .bf16⟩
  | .hbm, ⟨23, _⟩ => ⟨S10000x128x1, .f32⟩
  | .hbm, ⟨24, _⟩ => ⟨S10000x128, .f32⟩
  | .hbm, ⟨25, _⟩ => ⟨S10000x128, .bf16⟩
  | .hbm, ⟨26, _⟩ => ⟨S10000x768, .bf16⟩
  | .hbm, ⟨27, _⟩ => ⟨S320000x1, .i32⟩
  | .hbm, ⟨28, _⟩ => ⟨S320000x1, .i32⟩
  | .hbm, ⟨29, _⟩ => ⟨S320000x1, .f32⟩
  | .hbm, ⟨30, _⟩ => ⟨S10000, .i32⟩
  | .hbm, ⟨31, _⟩ => ⟨S1x10000, .i32⟩
  | .hbm, ⟨32, _⟩ => ⟨S2x10000x512, .f32⟩
  | .hbm, ⟨33, _⟩ => ⟨S1x10000x512, .f32⟩
  | .hbm, ⟨34, _⟩ => ⟨S10000x512, .f32⟩
  | .hbm, ⟨35, _⟩ => ⟨S1x10000x512, .f32⟩
  | .hbm, ⟨36, _⟩ => ⟨S10000x512, .f32⟩
  | .hbm, ⟨37, _⟩ => ⟨S10000x512, .f32⟩
  | .hbm, ⟨38, _⟩ => ⟨S10000x128, .f32⟩
  | .hbm, ⟨39, _⟩ => ⟨S10000x128, .f32⟩
  | .hbm, ⟨40, _⟩ => ⟨S10000x128, .f32⟩
  | .hbm, ⟨41, _⟩ => ⟨S10000x128, .f32⟩
  | .hbm, ⟨42, _⟩ => ⟨S_, .f32⟩
  | .hbm, ⟨43, _⟩ => ⟨S320000, .f32⟩
  | .hbm, ⟨44, _⟩ => ⟨S_, .f32⟩
  | .hbm, ⟨45, _⟩ => ⟨S10000, .f32⟩
  | .hbm, ⟨46, _⟩ => ⟨S320000x1, .i32⟩
  | .hbm, ⟨47, _⟩ => ⟨S10000, .f32⟩
  | .hbm, ⟨48, _⟩ => ⟨S_, .f32⟩
  | .hbm, ⟨49, _⟩ => ⟨S10000, .f32⟩
  | .hbm, ⟨50, _⟩ => ⟨S10000, .i1⟩
  | .hbm, ⟨51, _⟩ => ⟨S_, .f32⟩
  | .hbm, ⟨52, _⟩ => ⟨S_, .f32⟩
  | .hbm, ⟨53, _⟩ => ⟨S10000, .f32⟩
  | .hbm, ⟨54, _⟩ => ⟨S10000, .f32⟩
  | .hbm, ⟨55, _⟩ => ⟨S10000x1, .f32⟩
  | .hbm, ⟨56, _⟩ => ⟨S10000x128, .f32⟩
  | .hbm, ⟨57, _⟩ => ⟨S10000x128, .f32⟩
  | .hbm, ⟨58, _⟩ => ⟨S10000x128, .f32⟩
  | .hbm, ⟨59, _⟩ => ⟨S10000x128, .f32⟩
  | .hbm, ⟨60, _⟩ => ⟨S10000x128, .f32⟩
  | .hbm, ⟨61, _⟩ => ⟨S10000x128, .f32⟩
  | .hbm, ⟨62, _⟩ => ⟨S10000x128, .f32⟩
  | .hbm, ⟨63, _⟩ => ⟨S10000x128, .f32⟩
  | .hbm, ⟨64, _⟩ => ⟨S10000x128, .f32⟩
  | .hbm, ⟨65, _⟩ => ⟨S10000x128x1, .f32⟩
  | .hbm, ⟨66, _⟩ => ⟨S10000x128x1, .f32⟩
  | .hbm, ⟨67, _⟩ => ⟨S10000x128x1, .f32⟩
  | .hbm, ⟨68, _⟩ => ⟨S10000x128x3, .f32⟩
  | .hbm, ⟨69, _⟩ => ⟨S10000x128x3, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S128x384, .f32⟩
  | .local _ .vmem, ⟨5, _⟩ => ⟨S1x384, .f32⟩
  | .local _ .vmem, ⟨6, _⟩ => ⟨S2000x384, .bf16⟩
  | .local _ .vmem, ⟨7, _⟩ => ⟨S2000x384, .bf16⟩
  | .local _ .vmem, ⟨8, _⟩ => ⟨S128x1, .i32⟩
  | .local _ .vmem, ⟨9, _⟩ => ⟨S128x1, .i32⟩
  | .local _ .vmem, ⟨10, _⟩ => ⟨S128x1, .i32⟩
  | .local _ .vmem, ⟨11, _⟩ => ⟨S128x1, .i32⟩
  | .local _ .vmem, ⟨12, _⟩ => ⟨S128x3, .f32⟩
  | .local _ .vmem, ⟨13, _⟩ => ⟨S128x3, .f32⟩
  | .local _ .vmem, ⟨14, _⟩ => ⟨S128x1, .f32⟩
  | .local _ .vmem, ⟨15, _⟩ => ⟨S128x1, .f32⟩
  | .local _ .vmem, ⟨16, _⟩ => ⟨S128x20, .f32⟩
  | .local _ .vmem, ⟨17, _⟩ => ⟨S128x20, .f32⟩
  | .local _ .vmem, ⟨18, _⟩ => ⟨S10000x768, .bf16⟩
  | .local _ .vmem, ⟨19, _⟩ => ⟨S20x384, .f32⟩
  | .local _ .vmem, ⟨20, _⟩ => ⟨S1x384, .f32⟩
  | .local _ .vmem, ⟨21, _⟩ => ⟨S1x10000, .i32⟩
  | .local _ .vmem, ⟨22, _⟩ => ⟨S1x10000x512, .f32⟩
  | .local _ .vmem, ⟨23, _⟩ => ⟨S1x10000x512, .f32⟩
  | _, _ => ⟨S320000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst : Ref sig .tc := ⟨.hbm, 42, rfl⟩
abbrev main_v29 : Ref sig .tc := ⟨.hbm, 43, rfl⟩
abbrev main_cst_0 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_1 : Ref sig .tc := ⟨.hbm, 48, rfl⟩
abbrev main_v33 : Ref sig .tc := ⟨.hbm, 49, rfl⟩
abbrev main_v34 : Ref sig .tc := ⟨.hbm, 50, rfl⟩
abbrev main_cst_2 : Ref sig .tc := ⟨.hbm, 51, rfl⟩
abbrev main_call0_v0 : Ref sig .tc := ⟨.hbm, 52, rfl⟩
abbrev main_call0_v1 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x384 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![2, 1250], ![false, false]⟩

def cc1_transform_0 (i : grid1.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![v1.toNat, c0_i32.toNat]

def cc1_transform_4 (i : grid1.Coords) : Fin 2 → Nat :=
  let arg0 : BitVec 32 := BitVec.ofNat 32 (i 0).val
  let arg1 : BitVec 32 := BitVec.ofNat 32 (i 1).val
  let c1250_i32 : BitVec 32 := 1250#32
  let v0 : BitVec 32 := Scalar.muli arg0 c1250_i32
  let v1 : BitVec 32 := Scalar.addi v0 arg1
  let c0_i32 : BitVec 32 := 0#32
  let c0_i32_0 : BitVec 32 := 0#32
  ![v1.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S128x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x20 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 1 → Memref sig .tc .vmem S10000x768 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S20x384 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x384 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x10000 .i32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x10000x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

class Facts₀ : Prop where
  shapeCasts_S128_S1x128 : S128.ShapeCasts S1x128
  shapeCasts_S384_S1x384 : S384.ShapeCasts S1x384
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x384_S128x384_0_0 : ∀ a, (![0, 0] : Fin 2 → Nat) a + S128x384.size a ≤ S128x384.size a
  h_S128x384 : 0 < S128x384.numel
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S2000x384 : S1x384.Broadcasts S2000x384
  inb_S2000x384_S2000x384_0_0 : ∀ a, (![0, 0] : Fin 2 → Nat) a + S2000x384.size a ≤ S2000x384.size a
  h_S2000x384 : 0 < S2000x384.numel
  packedbf16_S2000x384_S2000x384_0_0 : (Rect.unit (s := S2000x384) ![0, 0] S2000x384.size inb_S2000x384_S2000x384_0_0).PackedRows (EltTy.packing .bf16)
  slices_S10000x128x3_S10000x128x1_0_0_0 : S10000x128x3.Slices ![0, 0, 0] S10000x128x1
  shapeCasts_S10000x128x1_S10000x128 : S10000x128x1.ShapeCasts S10000x128
  slices_S10000x128x3_S10000x128x1_0_0_1 : S10000x128x3.Slices ![0, 0, 1] S10000x128x1
  slices_S10000x128x3_S10000x128x1_0_0_2 : S10000x128x3.Slices ![0, 0, 2] S10000x128x1
  concatenates_S10000x384_S10000x128_S10000x128_S10000x128_S10000x768_d1 : Shape.Concatenates [S10000x384, S10000x128, S10000x128, S10000x128] S10000x768 1
  shapeCasts_S320000_S320000x1 : S320000.ShapeCasts S320000x1
  shapeCasts_S10000_S1x10000 : S10000.ShapeCasts S1x10000
  inb_S1x10000x512_S1x10000x512_0_0_0 : ∀ a, (![0, 0, 0] : Fin 3 → Nat) a + S1x10000x512.size a ≤ S1x10000x512.size a
  h_S1x10000x512 : 0 < S1x10000x512.numel
  shapeCasts_S1x10000x512_S10000x512 : S1x10000x512.ShapeCasts S10000x512
  shapeCasts_S10000x512_S1x10000x512 : S10000x512.ShapeCasts S1x10000x512
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S128x1_S128x10000 : S128x1.Broadcasts S128x10000
  broadcasts_S1x10000_S128x10000 : S1x10000.Broadcasts S128x10000
  natLt_1_32 : 1 < 32
  inb_S10000x768_S10000x768_0_0 : ∀ a, (![0, 0] : Fin 2 → Nat) a + S10000x768.size a ≤ S10000x768.size a
  h_S10000x768 : 0 < S10000x768.numel
  shapeCasts_S10000x768_S10000x768 : S10000x768.ShapeCasts S10000x768
  slices_S128x768_o0_0_S128x384 : S128x768.Slices ![0, 0] S128x384
  slices_S128x768_o0_384_S128x128 : S128x768.Slices ![0, 384] S128x128
  slices_S128x768_o0_512_S128x128 : S128x768.Slices ![0, 512] S128x128
  slices_S128x768_o0_640_S128x128 : S128x768.Slices ![0, 640] S128x128
  inb_S128x20_S128x20_0_0 : ∀ a, (![0, 0] : Fin 2 → Nat) a + S128x20.size a ≤ S128x20.size a
  h_S128x20 : 0 < S128x20.numel
  inb_S20x384_S20x384_0_0 : ∀ a, (![0, 0] : Fin 2 → Nat) a + S20x384.size a ≤ S20x384.size a
  h_S20x384 : 0 < S20x384.numel
  broadcasts_S1x384_S128x384 : S1x384.Broadcasts S128x384
  broadcasts_S128x1_S128x384 : S128x1.Broadcasts S128x384
  slices_S128x384_o0_0_S128x128 : S128x384.Slices ![0, 0] S128x128
  slices_S128x384_o0_128_S128x128 : S128x384.Slices ![0, 128] S128x128
  slices_S128x384_o0_256_S128x128 : S128x384.Slices ![0, 256] S128x128
  inb_S128x3_S128x3_0_0 : ∀ a, (![0, 0] : Fin 2 → Nat) a + S128x3.size a ≤ S128x3.size a
  h_S128x3 : 0 < S128x3.numel
  slices_S128x3_o0_0_S128x1 : S128x3.Slices ![0, 0] S128x1
  slices_S128x3_o0_1_S128x1 : S128x3.Slices ![0, 1] S128x1
  slices_S128x3_o0_2_S128x1 : S128x3.Slices ![0, 2] S128x1
  broadcasts_S128x1_S128x128 : S128x1.Broadcasts S128x128
  concatenates_S128x128_S128x128_S128x256_d1 : Shape.Concatenates [S128x128, S128x128] S128x256 1
  inb_S1x10000x512_S1x10000x256_0_0_0 : ∀ a, (![0, 0, 0] : Fin 3 → Nat) a + S1x10000x256.size a ≤ S1x10000x512.size a
  h_S1x10000x256 : 0 < S1x10000x256.numel
  shapeCasts_S1x10000x256_S10000x256 : S1x10000x256.ShapeCasts S10000x256
  shapeCasts_S10000x256_S1x10000x256 : S10000x256.ShapeCasts S1x10000x256
  inb_S1x10000x512_S1x10000x256_0_0_256 : ∀ a, (![0, 0, 256] : Fin 3 → Nat) a + S1x10000x256.size a ≤ S1x10000x512.size a
  slices_S2x10000x512_S1x10000x512_0_0_0 : S2x10000x512.Slices ![0, 0, 0] S1x10000x512
  slices_S2x10000x512_S1x10000x512_1_0_0 : S2x10000x512.Slices ![1, 0, 0] S1x10000x512
  slices_S10000x512_S10000x128_0_0 : S10000x512.Slices ![0, 0] S10000x128
  slices_S10000x512_S10000x128_0_128 : S10000x512.Slices ![0, 128] S10000x128
  slices_S10000x512_S10000x128_0_256 : S10000x512.Slices ![0, 256] S10000x128
  slices_S10000x512_S10000x128_0_384 : S10000x512.Slices ![0, 384] S10000x128
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S10000x128_S10000x128x1_0_1 : S10000x128.BroadcastsInDim S10000x128x1 (![0, 1] : Fin 2 → Fin S10000x128x1.rank)
  concatenates_S10000x128x1_S10000x128x1_S10000x128x1_S10000x128x3_d2 : Shape.Concatenates [S10000x128x1, S10000x128x1, S10000x128x1] S10000x128x3 2
  dot_S2000x128_S128x128_S2000x128_1_0_0_1_n_n_wf : DotDims.WF S2000x128 S128x128 S2000x128 [1] [0] [0] [1] [] []
  dot_S2000x128_S128x384_S2000x384_1_0_0_1_n_n_wf : DotDims.WF S2000x128 S128x384 S2000x384 [1] [0] [0] [1] [] []
  dot_S128x10000_S10000x768_S128x768_1_0_0_1_n_n_wf : DotDims.WF S128x10000 S10000x768 S128x768 [1] [0] [0] [1] [] []
  dot_S128x20_S20x384_S128x384_1_0_0_1_n_n_wf : DotDims.WF S128x20 S20x384 S128x384 [1] [0] [0] [1] [] []
  dot_S128x10000_S128x256_S10000x256_0_0_1_1_n_n_wf : DotDims.WF S128x10000 S128x256 S10000x256 [0] [0] [1] [1] [] []
  scatter_S10000_S320000x1_S320000_n_0_0_1_wf : ScatterDims.WF S10000 S320000x1 S320000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x384.size a ≤ S128x384.size a
  hwx0_3 : ∀ i : grid0.Coords, EltTy.bits .f32 = 32 ∨ (Rect.block (s := S128x384) S128x384.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x384.size a ≤ S1x384.size a
  hwx0_4 : ∀ i : grid0.Coords, EltTy.bits .f32 = 32 ∨ (Rect.block (s := S1x384) S1x384.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x384.size a ≤ S10000x384.size a
  hwx0_5 : ∀ i : grid0.Coords, EltTy.bits .bf16 = 32 ∨ (Rect.block (s := S10000x384) S2000x384.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1.size a ≤ S320000x1.size a
  hwx1_0 : ∀ i : grid1.Coords, EltTy.bits .i32 = 32 ∨ (Rect.block (s := S320000x1) S128x1.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S320000x1.size a
  hwx1_1 : ∀ i : grid1.Coords, EltTy.bits .i32 = 32 ∨ (Rect.block (s := S320000x1) S128x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x3.size a ≤ S320000x3.size a
  hwx1_2 : ∀ i : grid1.Coords, EltTy.bits .f32 = 32 ∨ (Rect.block (s := S320000x3) S128x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S320000x1.size a
  hwx1_3 : ∀ i : grid1.Coords, EltTy.bits .f32 = 32 ∨ (Rect.block (s := S320000x1) S128x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S128x20.size a ≤ S320000x20.size a
  hwx1_4 : ∀ i : grid1.Coords, EltTy.bits .f32 = 32 ∨ (Rect.block (s := S320000x20) S128x20.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S10000x768.size a ≤ S10000x768.size a
  hwx1_5 : ∀ i : grid1.Coords, EltTy.bits .bf16 = 32 ∨ (Rect.block (s := S10000x768) S10000x768.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S20x384.size a ≤ S20x384.size a
  hwx1_6 : ∀ i : grid1.Coords, EltTy.bits .f32 = 32 ∨ (Rect.block (s := S20x384) S20x384.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x384.size a ≤ S1x384.size a
  hwx1_7 : ∀ i : grid1.Coords, EltTy.bits .f32 = 32 ∨ (Rect.block (s := S1x384) S1x384.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x10000.size a ≤ S1x10000.size a
  hwx1_8 : ∀ i : grid1.Coords, EltTy.bits .i32 = 32 ∨ (Rect.block (s := S1x10000) S1x10000.size (cc1_transform_8 i) (hinb1_8 i)).WholeWords (EltTy.packing .i32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x10000x512.size a ≤ S2x10000x512.size a
  hwx1_9 : ∀ i : grid1.Coords, EltTy.bits .f32 = 32 ∨ (Rect.block (s := S2x10000x512) S1x10000x512.size (cc1_transform_9 i) (hinb1_9 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def dot_S128x10000_S10000x768_S128x768_1_0_0_1_n_n : DotDims S128x10000 S10000x768 S128x768 where
  lhsContracting := [1]
  rhsContracting := [0]
  lhsNonContracting := [0]
  rhsNonContracting := [1]
  lhsBatch := []
  rhsBatch := []
  wf := dot_S128x10000_S10000x768_S128x768_1_0_0_1_n_n_wf
def dot_S128x20_S20x384_S128x384_1_0_0_1_n_n : DotDims S128x20 S20x384 S128x384 where
  lhsContracting := [1]
  rhsContracting := [0]
  lhsNonContracting := [0]
  rhsNonContracting := [1]
  lhsBatch := []
  rhsBatch := []
  wf := dot_S128x20_S20x384_S128x384_1_0_0_1_n_n_wf
def dot_S128x10000_S128x256_S10000x256_0_0_1_1_n_n : DotDims S128x10000 S128x256 S10000x256 where
  lhsContracting := [0]
  rhsContracting := [0]
  lhsNonContracting := [1]
  rhsNonContracting := [1]
  lhsBatch := []
  rhsBatch := []
  wf := dot_S128x10000_S128x256_S10000x256_0_0_1_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf

abbrev win0_0 : Pipeline.Window sig grid0 :=
  Pipeline.Window.ofSpec (Memref.whole main_arg5) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg9) S128x384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2000x384.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S128x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S128x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x20.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13) S10000x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg11) S20x384.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v2) S1x384.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S1x10000.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v19) S1x10000x512.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S320000 : Shape := ⟨1, ![320000]⟩
abbrev S320000x3 : Shape := ⟨2, ![320000, 3]⟩
abbrev S320000x20 : Shape := ⟨2, ![320000, 20]⟩
abbrev S10000x128 : Shape := ⟨2, ![10000, 128]⟩
abbrev S10000x128x3 : Shape := ⟨3, ![10000, 128, 3]⟩
abbrev S128x128 : Shape := ⟨2, ![128, 128]⟩
abbrev S128 : Shape := ⟨1, ![128]⟩
abbrev S128x384 : Shape := ⟨2, ![128, 384]⟩
abbrev S384 : Shape := ⟨1, ![384]⟩
abbrev S20x384 : Shape := ⟨2, ![20, 384]⟩
abbrev S1x128 : Shape := ⟨2, ![1, 128]⟩
abbrev S_ : Shape := ⟨0, ![]⟩
abbrev S10000x384 : Shape := ⟨2, ![10000, 384]⟩
abbrev S1x384 : Shape := ⟨2, ![1, 384]⟩
abbrev S320000x384 : Shape := ⟨2, ![320000, 384]⟩
abbrev S320000x1 : Shape := ⟨2, ![320000, 1]⟩
abbrev S320000x128 : Shape := ⟨2, ![320000, 128]⟩
abbrev S10000 : Shape := ⟨1, ![10000]⟩
abbrev S10000x1 : Shape := ⟨2, ![10000, 1]⟩
abbrev S320000x128x3 : Shape := ⟨3, ![320000, 128, 3]⟩
abbrev S320000x128x1 : Shape := ⟨3, ![320000, 128, 1]⟩
abbrev S320000x1x3 : Shape := ⟨3, ![320000, 1, 3]⟩
abbrev S10000x1x1 : Shape := ⟨3, ![10000, 1, 1]⟩

abbrev nBuf : Space → Nat
  | .hbm => 90
  | .vmem => 0
  | .smem => 0
  | _ => 0

abbrev bufTy : (tb : Table) → Fin (tcTables nBuf tb) → BufTy
  | .hbm, ⟨0, _⟩ => ⟨S320000, .i32⟩
  | .hbm, ⟨1, _⟩ => ⟨S320000, .i32⟩
  | .hbm, ⟨2, _⟩ => ⟨S320000x3, .f32⟩
  | .hbm, ⟨3, _⟩ => ⟨S320000, .f32⟩
  | .hbm, ⟨4, _⟩ => ⟨S320000x20, .f32⟩
  | .hbm, ⟨5, _⟩ => ⟨S10000x128, .f32⟩
  | .hbm, ⟨6, _⟩ => ⟨S10000x128x3, .f32⟩
  | .hbm, ⟨7, _⟩ => ⟨S128x128, .f32⟩
  | .hbm, ⟨8, _⟩ => ⟨S128, .f32⟩
  | .hbm, ⟨9, _⟩ => ⟨S128x384, .f32⟩
  | .hbm, ⟨10, _⟩ => ⟨S384, .f32⟩
  | .hbm, ⟨11, _⟩ => ⟨S20x384, .f32⟩
  | .hbm, ⟨12, _⟩ => ⟨S384, .f32⟩
  | .hbm, ⟨13, _⟩ => ⟨S10000x128, .f32⟩
  | .hbm, ⟨14, _⟩ => ⟨S1x128, .f32⟩
  | .hbm, ⟨15, _⟩ => ⟨S10000x128, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S_, .f32⟩
  | .hbm, ⟨20, _⟩ => ⟨S10000x128, .f32⟩
  | .hbm, ⟨21, _⟩ => ⟨S10000x128, .f32⟩
  | .hbm, ⟨22, _⟩ => ⟨S_, .f32⟩
  | .hbm, ⟨23, _⟩ => ⟨S10000x128, .f32⟩
  | .hbm, ⟨24, _⟩ => ⟨S10000x128, .f32⟩
  | .hbm, ⟨25, _⟩ => ⟨S10000x128, .f32⟩
  | .hbm, ⟨26, _⟩ => ⟨S10000x384, .f32⟩
  | .hbm, ⟨27, _⟩ => ⟨S1x384, .f32⟩
  | .hbm, ⟨28, _⟩ => ⟨S10000x384, .f32⟩
  | .hbm, ⟨29, _⟩ => ⟨S10000x384, .f32⟩
  | .hbm, ⟨30, _⟩ => ⟨S320000x384, .f32⟩
  | .hbm, ⟨31, _⟩ => ⟨S1x384, .f32⟩
  | .hbm, ⟨32, _⟩ => ⟨S320000x384, .f32⟩
  | .hbm, ⟨33, _⟩ => ⟨S320000x384, .f32⟩
  | .hbm, ⟨34, _⟩ => ⟨S320000x1, .f32⟩
  | .hbm, ⟨35, _⟩ => ⟨S320000x384, .f32⟩
  | .hbm, ⟨36, _⟩ => ⟨S320000x384, .f32⟩
  | .hbm, ⟨37, _⟩ => ⟨S_, .i32⟩
  | .hbm, ⟨38, _⟩ => ⟨S320000, .i32⟩
  | .hbm, ⟨39, _⟩ => ⟨S320000, .i1⟩
  | .hbm, ⟨40, _⟩ => ⟨S_, .i32⟩
  | .hbm, ⟨41, _⟩ => ⟨S320000, .i32⟩
  | .hbm, ⟨42, _⟩ => ⟨S320000, .i32⟩
  | .hbm, ⟨43, _⟩ => ⟨S320000, .i32⟩
  | .hbm, ⟨44, _⟩ => ⟨S320000x1, .i32⟩
  | .hbm, ⟨45, _⟩ => ⟨S320000x384, .f32⟩
  | .hbm, ⟨46, _⟩ => ⟨S320000x384, .f32⟩
  | .hbm, ⟨47, _⟩ => ⟨S320000x128, .f32⟩
  | .hbm, ⟨48, _⟩ => ⟨S320000x128, .f32⟩
  | .hbm, ⟨49, _⟩ => ⟨S320000x128, .f32⟩
  | .hbm, ⟨50, _⟩ => ⟨S_, .f32⟩
  | .hbm, ⟨51, _⟩ => ⟨S320000, .f32⟩
  | .hbm, ⟨52, _⟩ => ⟨S_, .f32⟩
  | .hbm, ⟨53, _⟩ => ⟨S10000, .f32⟩
  | .hbm, ⟨54, _⟩ => ⟨S320000x1, .i32⟩
  | .hbm, ⟨55, _⟩ => ⟨S10000, .f32⟩
  | .hbm, ⟨56, _⟩ => ⟨S_, .f32⟩
  | .hbm, ⟨57, _⟩ => ⟨S10000x128, .f32⟩
  | .hbm, ⟨58, _⟩ => ⟨S320000x1, .i32⟩
  | .hbm, ⟨59, _⟩ => ⟨S10000x128, .f32⟩
  | .hbm, ⟨60, _⟩ => ⟨S10000x1, .f32⟩
  | .hbm, ⟨61, _⟩ => ⟨S10000x128, .f32⟩
  | .hbm, ⟨62, _⟩ => ⟨S10000x128, .f32⟩
  | .hbm, ⟨63, _⟩ => ⟨S_, .i32⟩
  | .hbm, ⟨64, _⟩ => ⟨S320000, .i32⟩
  | .hbm, ⟨65, _⟩ => ⟨S320000, .i1⟩
  | .hbm, ⟨66, _⟩ => ⟨S_, .i32⟩
  | .hbm, ⟨67, _⟩ => ⟨S320000, .i32⟩
  | .hbm, ⟨68, _⟩ => ⟨S320000, .i32⟩
  | .hbm, ⟨69, _⟩ => ⟨S320000, .i32⟩
  | .hbm, ⟨70, _⟩ => ⟨S320000x1, .i32⟩
  | .hbm, ⟨71, _⟩ => ⟨S320000x128x3, .f32⟩
  | .hbm, ⟨72, _⟩ => ⟨S320000x128x1, .f32⟩
  | .hbm, ⟨73, _⟩ => ⟨S320000x128x3, .f32⟩
  | .hbm, ⟨74, _⟩ => ⟨S320000x128x3, .f32⟩
  | .hbm, ⟨75, _⟩ => ⟨S320000x128x1, .f32⟩
  | .hbm, ⟨76, _⟩ => ⟨S320000x1x3, .f32⟩
  | .hbm, ⟨77, _⟩ => ⟨S320000x128x3, .f32⟩
  | .hbm, ⟨78, _⟩ => ⟨S320000x128x3, .f32⟩
  | .hbm, ⟨79, _⟩ => ⟨S320000x128x3, .f32⟩
  | .hbm, ⟨80, _⟩ => ⟨S320000x128x3, .f32⟩
  | .hbm, ⟨81, _⟩ => ⟨S_, .f32⟩
  | .hbm, ⟨82, _⟩ => ⟨S10000x128x3, .f32⟩
  | .hbm, ⟨83, _⟩ => ⟨S320000x1, .i32⟩
  | .hbm, ⟨84, _⟩ => ⟨S10000x128x3, .f32⟩
  | .hbm, ⟨85, _⟩ => ⟨S10000x1x1, .f32⟩
  | .hbm, ⟨86, _⟩ => ⟨S10000x128x3, .f32⟩
  | .hbm, ⟨87, _⟩ => ⟨S10000x128x3, .f32⟩
  | .hbm, ⟨88, _⟩ => ⟨S10000x128, .f32⟩
  | .hbm, ⟨89, _⟩ => ⟨S10000x128x3, .f32⟩
  | _, _ => ⟨S320000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_0 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst : Ref sig .tc := ⟨.hbm, 50, rfl⟩
abbrev main_v27 : Ref sig .tc := ⟨.hbm, 51, rfl⟩
abbrev main_cst_1 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_cst_2 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_3 : Ref sig .tc := ⟨.hbm, 63, rfl⟩
abbrev main_v37 : Ref sig .tc := ⟨.hbm, 64, rfl⟩
abbrev main_v38 : Ref sig .tc := ⟨.hbm, 65, rfl⟩
abbrev main_c_4 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_5 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  bcast_S384_S1x384_1 : S384.BroadcastsInDim S1x384 (![1] : Fin 1 → Fin S1x384.rank)
  bcast_S1x384_S10000x384_0_1 : S1x384.BroadcastsInDim S10000x384 (![0, 1] : Fin 2 → Fin S10000x384.rank)
  bcast_S1x384_S320000x384_0_1 : S1x384.BroadcastsInDim S320000x384 (![0, 1] : Fin 2 → Fin S320000x384.rank)
  bcast_S320000_S320000x1_0 : S320000.BroadcastsInDim S320000x1 (![0] : Fin 1 → Fin S320000x1.rank)
  bcast_S320000x1_S320000x384_0_1 : S320000x1.BroadcastsInDim S320000x384 (![0, 1] : Fin 2 → Fin S320000x384.rank)
  bcast_S_S320000 : S_.BroadcastsInDim S320000 (![] : Fin 0 → Fin S320000.rank)
  slices_S320000x384_S320000x128_0_0 : S320000x384.Slices ![0, 0] S320000x128
  slices_S320000x384_S320000x128_0_128 : S320000x384.Slices ![0, 128] S320000x128
  slices_S320000x384_S320000x128_0_256 : S320000x384.Slices ![0, 256] S320000x128
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S320000x128_S320000x128x1_0_1 : S320000x128.BroadcastsInDim S320000x128x1 (![0, 1] : Fin 2 → Fin S320000x128x1.rank)
  bcast_S320000x128x1_S320000x128x3_0_1_2 : S320000x128x1.BroadcastsInDim S320000x128x3 (![0, 1, 2] : Fin 3 → Fin S320000x128x3.rank)
  bcast_S320000x3_S320000x1x3_0_2 : S320000x3.BroadcastsInDim S320000x1x3 (![0, 2] : Fin 2 → Fin S320000x1x3.rank)
  bcast_S320000x1x3_S320000x128x3_0_1_2 : S320000x1x3.BroadcastsInDim S320000x128x3 (![0, 1, 2] : Fin 3 → Fin S320000x128x3.rank)
  bcast_S_S10000x128x3 : S_.BroadcastsInDim S10000x128x3 (![] : Fin 0 → Fin S10000x128x3.rank)
  bcast_S10000_S10000x1x1_0 : S10000.BroadcastsInDim S10000x1x1 (![0] : Fin 1 → Fin S10000x1x1.rank)
  bcast_S10000x1x1_S10000x128x3_0_1_2 : S10000x1x1.BroadcastsInDim S10000x128x3 (![0, 1, 2] : Fin 3 → Fin S10000x128x3.rank)
  dot_S10000x128_S128x128_S10000x128_1_0_0_1_n_n_wf : DotDims.WF S10000x128 S128x128 S10000x128 [1] [0] [0] [1] [] []
  dot_S10000x128_S128x384_S10000x384_1_0_0_1_n_n_wf : DotDims.WF S10000x128 S128x384 S10000x384 [1] [0] [0] [1] [] []
  dot_S320000x20_S20x384_S320000x384_1_0_0_1_n_n_wf : DotDims.WF S320000x20 S20x384 S320000x384 [1] [0] [0] [1] [] []
  gather_S10000x384_S320000x1_S320000x384_1_0_n_n_0_1_1384_wf : GatherDims.WF S10000x384 S320000x1 S320000x384 [1] [0] [] [0] [] 1 ![1, 384]
  scatter_S10000_S320000x1_S320000_n_0_0_1_wf : ScatterDims.WF S10000 S320000x1 S320000 [] [0] [0] 1
  scatter_S10000x128_S320000x1_S320000x128_1_0_0_1_wf : ScatterDims.WF S10000x128 S320000x1 S320000x128 [1] [0] [0] 1
  gather_S10000x128x3_S320000x1_S320000x128x3_12_0_n_n_0_1_11283_wf : GatherDims.WF S10000x128x3 S320000x1 S320000x128x3 [1, 2] [0] [] [0] [] 1 ![1, 128, 3]
  scatter_S10000x128x3_S320000x1_S320000x128x3_12_0_0_1_wf : ScatterDims.WF S10000x128x3 S320000x1 S320000x128x3 [1, 2] [0] [0] 1

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def dot_S320000x20_S20x384_S320000x384_1_0_0_1_n_n : DotDims S320000x20 S20x384 S320000x384 where
  lhsContracting := [1]
  rhsContracting := [0]
  lhsNonContracting := [0]
  rhsNonContracting := [1]
  lhsBatch := []
  rhsBatch := []
  wf := dot_S320000x20_S20x384_S320000x384_1_0_0_1_n_n_wf
def gather_S10000x384_S320000x1_S320000x384_1_0_n_n_0_1_1384 : GatherDims S10000x384 S320000x1 S320000x384 where
  offsetDims := [1]
  collapsedSliceDims := [0]
  operandBatchingDims := []
  startIndicesBatchingDims := []
  startIndexMap := [0]
  indexVectorDim := 1
  sliceSizes := ![1, 384]
  wf := gather_S10000x384_S320000x1_S320000x384_1_0_n_n_0_1_1384_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def scatter_S10000x128_S320000x1_S320000x128_1_0_0_1 : ScatterDims S10000x128 S320000x1 S320000x128 where
  updateWindowDims := [1]
  insertedWindowDims := [0]
  scatterDimsToOperandDims := [0]
  indexVectorDim := 1
  wf := scatter_S10000x128_S320000x1_S320000x128_1_0_0_1_wf
def gather_S10000x128x3_S320000x1_S320000x128x3_12_0_n_n_0_1_11283 : GatherDims S10000x128x3 S320000x1 S320000x128x3 where
  offsetDims := [1, 2]
  collapsedSliceDims := [0]
  operandBatchingDims := []
  startIndicesBatchingDims := []
  startIndexMap := [0]
  indexVectorDim := 1
  sliceSizes := ![1, 128, 3]
  wf := gather_S10000x128x3_S320000x1_S320000x128x3_12_0_n_n_0_1_11283_wf
def scatter_S10000x128x3_S320000x1_S320000x128x3_12_0_0_1 : ScatterDims S10000x128x3 S320000x1 S320000x128x3 where
  updateWindowDims := [1, 2]
  insertedWindowDims := [0]
  scatterDimsToOperandDims := [0]
  indexVectorDim := 1
  wf := scatter_S10000x128x3_S320000x1_S320000x128x3_12_0_0_1_wf

class Facts : Prop extends Facts₀ where

variable [Facts]
-- ==== Proof.IdealR0.lean ====
import proofs.«403595_j11347303596608_3_alg».proof.Proof.Gen.KernelIdeal.Launch
import proofs.«403595_j11347303596608_3_alg».proof.Proof.Gen.KernelIdeal.Skeleton
import proofs.«403595_j11347303596608_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S2000x128 := Rect.unit (s := S2000x128) ![0, 0] S2000x128.size inb_S2000x128_S2000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S128x384 := Rect.unit (s := S128x384) ![0, 0] S128x384.size inb_S128x384_S128x384_0_0
abbrev r0_4 : Rect S1x384 := Rect.unit (s := S1x384) ![0, 0] S1x384.size inb_S1x384_S1x384_0_0
abbrev r0_5 : Rect S2000x384 := Rect.unit (s := S2000x384) ![0, 0] S2000x384.size inb_S2000x384_S2000x384_0_0

/-- The node kernel's one store: the perceptron's value on the loaded blocks, over the whole output block. -/
def out0_5 (x0 : Vec F S2000x128 .f32) (x1 : Vec F S128x128 .f32) (x2 : Vec F S1x128 .f32) (x3 : Vec F S128x384 .f32) (x4 : Vec F S1x384 .f32) :
    Vec F S2000x384 .bf16 :=
  View.canon [⟨r0_5, k0_pay1 (View.ld x0 r0_0) (View.ld x1 r0_1) (View.ld x2 r0_2) (View.ld x3 r0_3) (View.ld x4 r0_4)⟩]

theorem cover0_5 (p0 : Vec F S2000x384 .bf16) (y : S2000x384.Idx) :
    ∃ pc ∈ ([⟨r0_5, p0⟩] : List (View.Piece (Elt F) S2000x384 .bf16)), y ∈ pc.1.set :=
  View.cover_of_tiled [⟨r0_5, p0⟩] S2000x384.size (by rfl) y

set_option maxHeartbeats 2000000 in
theorem sound_kernel0 (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S1x128 .f32) (harg3 : arg3.IsWhole) (arg4 : Memref sig .tc .vmem S128x384 .f32) (harg4 : arg4.IsWhole)
    (arg5 : Memref sig .tc .vmem S1x384 .f32) (harg5 : arg5.IsWhole) (arg6 : Memref sig .tc .vmem S2000x384 .bf16) (harg6 : arg6.IsWhole)
    (x0 : Vec F S2000x128 .f32) (x1 : Vec F S128x128 .f32) (x2 : Vec F S1x128 .f32) (x3 : Vec F S128x384 .f32) (x4 : Vec F S1x384 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out0_5 x0 x1 x2 x3 x4)) -∗ K ⟨⟩))
      ⊢ wp frame (wpE (defs₀ (F := F)) Variants.none c none) E (cc0__phi_kernel i arg1 harg1 arg2 harg2 arg3 harg3 arg4 harg4 arg5 harg5 arg6 harg6) K := by
  simp only [cc0__phi_kernel_eq_skeleton]; unfold cc0__phi_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) :
    (dat0 V c).after 5 t = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  iframe H0 H1 H2 H3 H4
  isplitl [H5]; · iexists _; iexact H5
  iintro ⟨H0, H1, H2, H3, H4, H5⟩
  iframe

theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.IdealR1Runs.lean ====
import proofs.«403595_j11347303596608_3_alg».proof.Proof.Gen.KernelIdeal.Launch
import proofs.«403595_j11347303596608_3_alg».proof.Proof.Gen.KernelIdeal.Skeleton
import proofs.«403595_j11347303596608_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A whole buffer holding the contents that read as `x` is owned at `x`. -/
theorem unread_owned {sp : Space} {sh : Shape} {e : EltTy} (c : Dev nD) (a : Memref sig .tc sp sh e) (h : a.IsWhole) (x : sh.Idx → Elt F e) :
    (a.view.loc (c : Thread nD τ) ↦[a.view.set]{fullShare} h.unread x : sProp 𝕄)
      ⊢ iprop(∃ f, ⌜a.view.read (Elt F) f = x⌝ ∗ (a.view.loc (c : Thread nD τ) ↦[a.view.set]{fullShare} f)) := by
  iintro H; iexists _; isplitr; · ipureintro; exact h.read_unread _
  iexact H

/-- The body's one branch is taken where the second grid coordinate is zero: at the first point of each core's row. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 1250 = 0 :=
  (by decide +kernel : ∀ t : Fin grid1.N, cond1_0 (grid1.coords t) ↔ t.val % 1250 = 0)

abbrev VO1_9 : View sig .tc .vmem S1x10000x512 .f32 := (Memref.whole cc1_stg9_0 : Memref sig .tc .vmem S1x10000x512 .f32).view
abbrev ms1_0 (t : Fin cfg1.N) : Memref sig .tc .vmem S128x1 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x1 .i32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x20 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S10000x768 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S20x384 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1x384 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1x10000 .i32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S1x10000x512 .f32 := win1_9.stage (cfg1.slots t 9)
abbrev hs1_9 (t : Fin cfg1.N) : (ms1_9 t).IsWhole := hstage1_9 ((cfg1.slots t 9).cast nbuf1_9)

end Cert.KernelIdeal.Frame

end
-- ==== Proof.IdealR1RunA.lean ====
import proofs.«403595_j11347303596608_3_alg».proof.Proof.IdealR1Runs

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's stores as pieces where the slab is reset (the branch taken), with the proof that the body runs to the end. -/
noncomputable def kernelRun1_A (c : Dev nD) (i : grid1.Coords) (arg2 : Memref sig .tc .vmem S128x1 .i32) (harg2 : arg2.IsWhole) (arg3 : Memref sig .tc .vmem S128x1 .i32) (harg3 : arg3.IsWhole) (arg4 : Memref sig .tc .vmem S128x3 .f32) (harg4 : arg4.IsWhole) (arg5 : Memref sig .tc .vmem S128x1 .f32) (harg5 : arg5.IsWhole) (arg6 : Memref sig .tc .vmem S128x20 .f32) (harg6 : arg6.IsWhole) (arg7 : Memref sig .tc .vmem S10000x768 .bf16) (harg7 : arg7.IsWhole) (arg8 : Memref sig .tc .vmem S20x384 .f32) (harg8 : arg8.IsWhole) (arg9 : Memref sig .tc .vmem S1x384 .f32) (harg9 : arg9.IsWhole) (arg10 : Memref sig .tc .vmem S1x10000 .i32) (harg10 : arg10.IsWhole) (arg11 : Memref sig .tc .vmem S1x10000x512 .f32) (harg11 : arg11.IsWhole) (hc0 : cond1_0 i)
    (x0 : Vec F S128x1 .i32) (x1 : Vec F S128x1 .i32) (x2 : Vec F S128x3 .f32) (x3 : Vec F S128x1 .f32) (x4 : Vec F S128x20 .f32) (x5 : Vec F S10000x768 .bf16) (x6 : Vec F S20x384 .f32) (x7 : Vec F S1x384 .f32) (x8 : Vec F S1x10000 .i32) :
    { L9 : List (View.Piece (Elt F) S1x10000x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9)) -∗ K ⟨⟩))
          ⊢ wp frame (wpE (defs₀ (F := F)) Variants.none c none) E (cc1__edge_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc1__edge_kernel_eq_skeleton]; unfold cc1__edge_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec (disch := first | exact hc0)
    sl_step
    iapply Hk
    isplitl [H0]; · iapply unread_owned c _ harg2; iexact H0
    isplitl [H1]; · iapply unread_owned c _ harg3; iexact H1
    isplitl [H2]; · iapply unread_owned c _ harg4; iexact H2
    isplitl [H3]; · iapply unread_owned c _ harg5; iexact H3
    isplitl [H4]; · iapply unread_owned c _ harg6; iexact H4
    isplitl [H5]; · iapply unread_owned c _ harg7; iexact H5
    isplitl [H6]; · iapply unread_owned c _ harg8; iexact H6
    isplitl [H7]; · iapply unread_owned c _ harg9; iexact H7
    isplitl [H8]; · iapply unread_owned c _ harg10; iexact H8
    iexists _; iexact H9

end Cert.KernelIdeal.Frame

end
-- ==== Proof.IdealR1RunB.lean ====
import proofs.«403595_j11347303596608_3_alg».proof.Proof.IdealR1Runs

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body's stores as pieces over what the point before left (the branch not taken), with the proof that the body runs to the end. -/
noncomputable def kernelRun1_B (c : Dev nD) (i : grid1.Coords) (arg2 : Memref sig .tc .vmem S128x1 .i32) (harg2 : arg2.IsWhole) (arg3 : Memref sig .tc .vmem S128x1 .i32) (harg3 : arg3.IsWhole) (arg4 : Memref sig .tc .vmem S128x3 .f32) (harg4 : arg4.IsWhole) (arg5 : Memref sig .tc .vmem S128x1 .f32) (harg5 : arg5.IsWhole) (arg6 : Memref sig .tc .vmem S128x20 .f32) (harg6 : arg6.IsWhole) (arg7 : Memref sig .tc .vmem S10000x768 .bf16) (harg7 : arg7.IsWhole) (arg8 : Memref sig .tc .vmem S20x384 .f32) (harg8 : arg8.IsWhole) (arg9 : Memref sig .tc .vmem S1x384 .f32) (harg9 : arg9.IsWhole) (arg10 : Memref sig .tc .vmem S1x10000 .i32) (harg10 : arg10.IsWhole) (arg11 : Memref sig .tc .vmem S1x10000x512 .f32) (harg11 : arg11.IsWhole) (hc0 : ¬cond1_0 i)
    (x0 : Vec F S128x1 .i32) (x1 : Vec F S128x1 .i32) (x2 : Vec F S128x3 .f32) (x3 : Vec F S128x1 .f32) (x4 : Vec F S128x20 .f32) (x5 : Vec F S10000x768 .bf16) (x6 : Vec F S20x384 .f32) (x7 : Vec F S1x384 .f32) (x8 : Vec F S1x10000 .i32) (xo9 : Vec F S1x10000x512 .f32) :
    { L9 : List (View.Piece (Elt F) S1x10000x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare xo9
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ (∃ f, arg11.view.loc (c : Thread nD τ) ↦[arg11.view.set]{fullShare} arg11.view.writes (Elt F) f L9)) -∗ K ⟨⟩))
          ⊢ wp frame (wpE (defs₀ (F := F)) Variants.none c none) E (cc1__edge_kernel i arg2 harg2 arg3 harg3 arg4 harg4 arg5 harg5 arg6 harg6 arg7 harg7 arg8 harg8 arg9 harg9 arg10 harg10 arg11 harg11) K } := by
  refine ⟨?_, fun E K => ?run⟩
  case run =>
    simp only [cc1__edge_kernel_eq_skeleton]; unfold cc1__edge_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hf9
    sl_exec (disch := first | exact hc0)
    sl_step
    iapply Hk
    isplitl [H0]; · iapply unread_owned c _ harg2; iexact H0
    isplitl [H1]; · iapply unread_owned c _ harg3; iexact H1
    isplitl [H2]; · iapply unread_owned c _ harg4; iexact H2
    isplitl [H3]; · iapply unread_owned c _ harg5; iexact H3
    isplitl [H4]; · iapply unread_owned c _ harg6; iexact H4
    isplitl [H5]; · iapply unread_owned c _ harg7; iexact H5
    isplitl [H6]; · iapply unread_owned c _ harg8; iexact H6
    isplitl [H7]; · iapply unread_owned c _ harg9; iexact H7
    isplitl [H8]; · iapply unread_owned c _ harg10; iexact H8
    iexists _; iexact H9

end Cert.KernelIdeal.Frame

end
-- ==== Proof.IdealR1.lean ====
import proofs.«403595_j11347303596608_3_alg».proof.Proof.IdealR1RunA
import proofs.«403595_j11347303596608_3_alg».proof.Proof.IdealR1RunB

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section Pieces

variable (c : Dev nD) (i : grid1.Coords)
  (arg2 : Memref sig .tc .vmem S128x1 .i32) (harg2 : arg2.IsWhole) (arg3 : Memref sig .tc .vmem S128x1 .i32) (harg3 : arg3.IsWhole)
  (arg4 : Memref sig .tc .vmem S128x3 .f32) (harg4 : arg4.IsWhole) (arg5 : Memref sig .tc .vmem S128x1 .f32) (harg5 : arg5.IsWhole)
  (arg6 : Memref sig .tc .vmem S128x20 .f32) (harg6 : arg6.IsWhole) (arg7 : Memref sig .tc .vmem S10000x768 .bf16) (harg7 : arg7.IsWhole)
  (arg8 : Memref sig .tc .vmem S20x384 .f32) (harg8 : arg8.IsWhole) (arg9 : Memref sig .tc .vmem S1x384 .f32) (harg9 : arg9.IsWhole)
  (arg10 : Memref sig .tc .vmem S1x10000 .i32) (harg10 : arg10.IsWhole) (arg11 : Memref sig .tc .vmem S1x10000x512 .f32) (harg11 : arg11.IsWhole)

/-- The stored rectangles tile the slab. -/
theorem cover1_A_9 (hc0 : cond1_0 i)
    (x0 : Vec F S128x1 .i32) (x1 : Vec F S128x1 .i32) (x2 : Vec F S128x3 .f32) (x3 : Vec F S128x1 .f32) (x4 : Vec F S128x20 .f32) (x5 : Vec F S10000x768 .bf16) (x6 : Vec F S20x384 .f32) (x7 : Vec F S1x384 .f32) (x8 : Vec F S1x10000 .i32) (y : S1x10000x512.Idx) :
    ∃ pc ∈ (kernelRun1_A c i arg2 harg2 arg3 harg3 arg4 harg4 arg5 harg5 arg6 harg6 arg7 harg7 arg8 harg8 arg9 harg9 arg10 harg10 arg11 harg11 hc0 x0 x1 x2 x3 x4 x5 x6 x7 x8).1, y ∈ pc.1.set :=
  View.cover_of_tiledL (kernelRun1_A c i arg2 harg2 arg3 harg3 arg4 harg4 arg5 harg5 arg6 harg6 arg7 harg7 arg8 harg8 arg9 harg9 arg10 harg10 arg11 harg11 hc0 x0 x1 x2 x3 x4 x5 x6 x7 x8).1 S1x10000x512.size (by sl_kernel_rfl) y

def out1_A_9 (hc0 : cond1_0 i)
    (x0 : Vec F S128x1 .i32) (x1 : Vec F S128x1 .i32) (x2 : Vec F S128x3 .f32) (x3 : Vec F S128x1 .f32) (x4 : Vec F S128x20 .f32) (x5 : Vec F S10000x768 .bf16) (x6 : Vec F S20x384 .f32) (x7 : Vec F S1x384 .f32) (x8 : Vec F S1x10000 .i32) : Vec F S1x10000x512 .f32 :=
  VO1_9.read (Elt F) (VO1_9.writes (Elt F) VO1_9.junk (kernelRun1_A c i arg2 harg2 arg3 harg3 arg4 harg4 arg5 harg5 arg6 harg6 arg7 harg7 arg8 harg8 arg9 harg9 arg10 harg10 arg11 harg11 hc0 x0 x1 x2 x3 x4 x5 x6 x7 x8).1)

theorem cover1_B_9 (hc0 : ¬cond1_0 i)
    (x0 : Vec F S128x1 .i32) (x1 : Vec F S128x1 .i32) (x2 : Vec F S128x3 .f32) (x3 : Vec F S128x1 .f32) (x4 : Vec F S128x20 .f32) (x5 : Vec F S10000x768 .bf16) (x6 : Vec F S20x384 .f32) (x7 : Vec F S1x384 .f32) (x8 : Vec F S1x10000 .i32) (xo9 : Vec F S1x10000x512 .f32) (y : S1x10000x512.Idx) :
    ∃ pc ∈ (kernelRun1_B c i arg2 harg2 arg3 harg3 arg4 harg4 arg5 harg5 arg6 harg6 arg7 harg7 arg8 harg8 arg9 harg9 arg10 harg10 arg11 harg11 hc0 x0 x1 x2 x3 x4 x5 x6 x7 x8 xo9).1, y ∈ pc.1.set :=
  View.cover_of_tiledL (kernelRun1_B c i arg2 harg2 arg3 harg3 arg4 harg4 arg5 harg5 arg6 harg6 arg7 harg7 arg8 harg8 arg9 harg9 arg10 harg10 arg11 harg11 hc0 x0 x1 x2 x3 x4 x5 x6 x7 x8 xo9).1 S1x10000x256.size (by sl_kernel_rfl) y

def out1_B_9 (hc0 : ¬cond1_0 i)
    (x0 : Vec F S128x1 .i32) (x1 : Vec F S128x1 .i32) (x2 : Vec F S128x3 .f32) (x3 : Vec F S128x1 .f32) (x4 : Vec F S128x20 .f32) (x5 : Vec F S10000x768 .bf16) (x6 : Vec F S20x384 .f32) (x7 : Vec F S1x384 .f32) (x8 : Vec F S1x10000 .i32) (xo9 : Vec F S1x10000x512 .f32) : Vec F S1x10000x512 .f32 :=
  VO1_9.read (Elt F) (VO1_9.writes (Elt F) VO1_9.junk (kernelRun1_B c i arg2 harg2 arg3 harg3 arg4 harg4 arg5 harg5 arg6 harg6 arg7 harg7 arg8 harg8 arg9 harg9 arg10 harg10 arg11 harg11 hc0 x0 x1 x2 x3 x4 x5 x6 x7 x8 xo9).1)

end Pieces

/-- The slab after point `n`: what a reset leaves at the first point of a core's row, else what the body leaves over point `n - 1`'s. -/
def outsAt1 (c : Dev nD) : (n : ℕ) → n < cfg1.N → Vec F S1x10000x512 .f32
  | 0, hn => out1_A_9 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩)
  | n + 1, hn =>
    if h0 : (n + 1) % 1250 = 0 then
      out1_A_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩)
    else
      out1_B_9 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (outsAt1 c n (Nat.lt_of_succ_lt hn))

theorem outsAt1_A (c : Dev nD) (t : Fin cfg1.N) (h0 : t.val % 1250 = 0) :
    outsAt1 V c t.val t.isLt = out1_A_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) := by
  obtain ⟨n, hn⟩ := t
  cases n with
  | zero => exact rfl
  | succ n => exact (dif_pos h0).trans rfl

theorem outsAt1_B (c : Dev nD) (t : Fin cfg1.N) (h0 : ¬t.val % 1250 = 0) :
    outsAt1 V c t.val t.isLt = out1_B_9 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => (outsAt1 V c t.val t.isLt)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = (outsAt1 V c t.val t.isLt) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl
theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl
theorem before1_8 (c : Dev nD) (t : Fin cfg1.N) (d) : (dat1 V c).before 8 t d = iblk1 V c 8 t :=
  ((dat1 V c).before_in_eq_fetched 8 rfl (fun _ => rfl) (fun _ _ _ => rfl) (fun _ => rfl) t d).trans rfl

theorem before1_9_B (c : Dev nD) (t : Fin cfg1.N) (h0 : ¬t.val % 1250 = 0) (d) :
    (dat1 V c).before 9 t d = (outsAt1 V c (t.val - 1) (Nat.lt_of_le_of_lt (Nat.sub_le _ _) t.isLt)) := by
  have hN : t.val < 2500 := lt_of_lt_of_eq t.isLt (show cfg1.N = 2500 from N_1)
  rw [Dat.before_out_kept _ 9 rfl t (by omega) (Bool.eq_false_iff.mpr fun h => by have := (flush1_9 _).mp h; dsimp only at this; omega)
    (fun _ => rfl) (fun _ _ => rfl)]
  dsimp only [dat1]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  have hN : t.val < 2500 := lt_of_lt_of_eq t.isLt (show cfg1.N = 2500 from N_1)
  by_cases h0 : t.val % 1250 = 0
  · rw [outsAt1_A V c t h0]
    unfold out1_A_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_A c (grid1.coords t) _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t)).2 Set.univ _)
    iframe H0 H1 H2 H3 H4 H5 H6 H7 H8
    isplitl [H9]; · iexists _; iexact H9
    iintro ⟨H0, H1, H2, H3, H4, H5, H6, H7, H8, ⟨%e9, H9⟩⟩
    iframe HΦ Ho H0 H1 H2 H3 H4 H5 H6 H7 H8
    unfold owns; iexists _; isplitr
    swap; · iexact H9
    ipureintro; exact View.read_writes_of_cover _ _ _ _ _ (cover1_A_9 c _ _ _ _ _ _ _ _ _ _ _ _ _ _ _ _ _ _ _ _ _ _ _ _ _ _ _ _ _ _ _)
  · rw [outsAt1_B V c t h0]
    simp only [before1_9_B V c t h0]
    unfold out1_B_9
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun1_B c (grid1.coords t) _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) _).2 Set.univ _)
    iframe H0 H1 H2 H3 H4 H5 H6 H7 H8 H9
    iintro ⟨H0, H1, H2, H3, H4, H5, H6, H7, H8, ⟨%e9, H9⟩⟩
    iframe HΦ Ho H0 H1 H2 H3 H4 H5 H6 H7 H8
    unfold owns; iexists _; isplitr
    swap; · iexact H9
    ipureintro; exact View.read_writes_of_cover _ _ _ _ _ (cover1_B_9 c _ _ _ _ _ _ _ _ _ _ _ _ _ _ _ _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.IdealMain.lean ====
import proofs.«403595_j11347303596608_3_alg».proof.Proof.IdealR0
import proofs.«403595_j11347303596608_3_alg».proof.Proof.IdealR1
import proofs.«403595_j11347303596608_3_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers' contents at each boundary between two items of the program, from the launch (`W0`) to the return (`W7`). -/
abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- A region changes only the arrays of its outputs. -/
theorem W2_kept (c : Dev nD) (b : Ref sig .tc) (hb : ∀ w, Pipeline.arrRef spec0 w = b → (cfg0.win w).isOut = false) :
    W2 m ρ c (Proc.devRef .tc b) = W1 m ρ c (Proc.devRef .tc b) := by
  by_cases h : ∃ w, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

theorem W4_kept (c : Dev nD) (b : Ref sig .tc) (hb : ∀ w, Pipeline.arrRef spec1 w = b → (cfg1.win w).isOut = false) :
    W4 m ρ c (Proc.devRef .tc b) = W3 m ρ c (Proc.devRef .tc b) := by
  by_cases h : ∃ w, Pipeline.arrRef spec1 w = b
  · obtain ⟨w, rfl⟩ := h
    exact (W4_arr m ρ c w).trans (((dat1 (V3 m ρ) c).arrAt_in w (hb w rfl) _).trans (A_eq1 (V3 m ρ) c w))
  · exact W4_of_ne m ρ c b fun w e => h ⟨w, e⟩

abbrev W5 : Dev nD → Valuation τ sig (Elt F) := fun c => StableHlo.after hostOps2 (W4 m ρ c)
abbrev W6 : Dev nD → Valuation τ sig (Elt F) := fun c => StableHlo.after hostOps2_1 (W5 m ρ c)
abbrev W7 : Dev nD → Valuation τ sig (Elt F) := fun c => StableHlo.after hostOps2_2 (W6 m ρ c)

abbrev mainArgs : List (Ref sig .tc) :=
  [main_arg0, main_arg1, main_arg2, main_arg3, main_arg4, main_arg5, main_arg6, main_arg7, main_arg8, main_arg9, main_arg10,
    main_arg11, main_arg12]

/-- No host stretch writes an argument and no region has one as an output, so each ends as launched. -/
theorem W7_arg (c : Dev nD) {b : Ref sig .tc} (hb : b ∈ mainArgs) :
    W7 m ρ c (Proc.devRef .tc b) = m ((c : Thread nD τ).loc b) := by
  obtain ⟨h6, h5, h4, h3, h2, h1, h0⟩ := (by decide : ∀ b ∈ mainArgs, b ∉ hostOps2_2_W ∧ b ∉ hostOps2_1_W ∧ b ∉ hostOps2_W
    ∧ (∀ w, Pipeline.arrRef spec1 w = b → (cfg1.win w).isOut = false) ∧ b ∉ hostOps1_W
    ∧ (∀ w, Pipeline.arrRef spec0 w = b → (cfg0.win w).isOut = false) ∧ b ∉ hostOps0_W) b hb
  exact (StableHlo.after_of_writes_sub hostOps2_2 _ hostOps2_2_writes h6).trans <|
    (StableHlo.after_of_writes_sub hostOps2_1 _ hostOps2_1_writes h5).trans <|
    (StableHlo.after_of_writes_sub hostOps2 _ hostOps2_writes h4).trans <| (W4_kept m ρ c b h3).trans <|
    (StableHlo.after_of_writes_sub hostOps1 _ hostOps1_writes h2).trans <| (W2_kept m ρ c b h1).trans <|
    StableHlo.after_of_writes_sub hostOps0 _ hostOps0_writes h0

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)) ]
theorem main_run (c : Dev nD) : main (F := F) c = Pipeline.Seg.run (segs m ρ) := (main_chain c).trans (by chain_rfl)

set_option backward.isDefEq.respectTransparency.types false in
/-- Every weakly fair execution ends, nothing faulting, with every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    have key : ∀ b ∈ mainArgs, r.2.mem ((c.tc : Thread nD τ).loc b) = m ((c.tc : Thread nD τ).loc b) := fun b hb =>
      (h c _ (mem_uc b ((by decide : ∀ b ∈ mainArgs, ¬ (Proc.devRef .tc b : DevRef τ sig).isScoped) b hb))).trans (W7_arg m ρ c hb)
    exact ⟨key _ (by decide), key _ (by decide), key _ (by decide), key _ (by decide), key _ (by decide), key _ (by decide),
      key _ (by decide), key _ (by decide), key _ (by decide), key _ (by decide), key _ (by decide), key _ (by decide),
      key _ (by decide)⟩) (run_all m ρ)

end Cert.KernelIdeal.Frame

end
-- ==== Proof.Spec.lean ====
import Idealize.ShloMosaic.Lib.ValueIdx

noncomputable section

open scoped BigOperators

namespace Cert.Spec

open Idealize.ShloMosaic Idealize.ShloMosaic.ValueIdx

structure Inp where
  idxI : (⟨1, ![320000]⟩ : Shape).Idx → BitVec 32
  idxJ : (⟨1, ![320000]⟩ : Shape).Idx → BitVec 32
  rdir : (⟨2, ![320000, 3]⟩ : Shape).Idx → EReal
  dist : (⟨1, ![320000]⟩ : Shape).Idx → EReal
  rbf : (⟨2, ![320000, 20]⟩ : Shape).Idx → EReal
  sf : (⟨2, ![10000, 128]⟩ : Shape).Idx → EReal
  vf : (⟨3, ![10000, 128, 3]⟩ : Shape).Idx → EReal
  W1 : (⟨2, ![128, 128]⟩ : Shape).Idx → EReal
  b1 : (⟨1, ![128]⟩ : Shape).Idx → EReal
  W2 : (⟨2, ![128, 384]⟩ : Shape).Idx → EReal
  b2 : (⟨1, ![384]⟩ : Shape).Idx → EReal
  Wr : (⟨2, ![20, 384]⟩ : Shape).Idx → EReal
  br : (⟨1, ![384]⟩ : Shape).Idx → EReal

variable (a : Inp)

def hid (n : Fin 10000) (k : Fin 128) : EReal :=
  (∑ l : Fin 128, a.sf (ix2 n l) * a.W1 (ix2 l k)) + a.b1 (ix1 k)

def silu (x : EReal) : EReal := x * Ideal.logistic x

def phi (n : Fin 10000) (c : Fin 384) : EReal :=
  (∑ k : Fin 128, silu (hid a n k) * a.W2 (ix2 k c)) + a.b2 (ix1 c)

def wg (e : Fin 320000) (c : Fin 384) : EReal :=
  ((∑ k : Fin 20, a.rbf (ix2 e k) * a.Wr (ix2 k c)) + a.br (ix1 c)) * a.dist (ix1 e)

def jOf (e : Fin 320000) : Fin 10000 := ⟨min (a.idxJ (ix1 e)).toInt.toNat 9999, by omega⟩

def pw (e : Fin 320000) (c : Fin 384) : EReal := phi a (jOf a e) c * wg a e c

def mS (e : Fin 320000) (f : Fin 128) : EReal := pw a e ⟨128 + f.val, by omega⟩

def mV (e : Fin 320000) (f : Fin 128) (k : Fin 3) : EReal :=
  a.vf (ix3 (jOf a e) f k) * pw a e ⟨f.val, by omega⟩ + pw a e ⟨256 + f.val, by omega⟩ * a.rdir (ix2 e k)

def recv (n : Fin 10000) : Finset (Fin 320000) :=
  Finset.univ.filter (fun e : Fin 320000 => (a.idxI (ix1 e)).toInt = (n.val : ℤ))

def cnt (n : Fin 10000) : EReal := ∑ _e ∈ recv a n, (1 : EReal)

def outS (n : Fin 10000) (f : Fin 128) : EReal :=
  a.sf (ix2 n f) + Ideal.div (∑ e ∈ recv a n, mS a e f) (cnt a n)

def outV (n : Fin 10000) (f : Fin 128) (k : Fin 3) : EReal :=
  a.vf (ix3 n f k) + Ideal.div (∑ e ∈ recv a n, mV a e f k) (cnt a n)

def outSArr : (⟨2, ![10000, 128]⟩ : Shape).Idx → EReal := fun i => outS a (i 0) (i 1)
def outVArr : (⟨3, ![10000, 128, 3]⟩ : Shape).Idx → EReal := fun i => outV a (i 0) (i 1) (i 2)

def msg (e : Fin 320000) (col : Fin 512) : EReal :=
  if h : col.val < 128 then mS a e ⟨col.val, h⟩
  else mV a e ⟨(col.val - 128) % 128, Nat.mod_lt _ (by norm_num)⟩ ⟨(col.val - 128) / 128, by omega⟩

def tableS (n : Fin 10000) (j : Fin 768) : EReal :=
  if h : j.val < 384 then phi a n ⟨j.val, h⟩
  else a.vf (ix3 n ⟨(j.val - 384) % 128, Nat.mod_lt _ (by norm_num)⟩ ⟨(j.val - 384) / 128, by omega⟩)

def csafe (n : Fin 10000) : EReal := if 0 < cnt a n then cnt a n else 1

def SendersInRange : Prop := ∀ e : Fin 320000, 0 ≤ (a.idxJ (ix1 e)).toInt ∧ (a.idxJ (ix1 e)).toInt < 10000

def EveryNodeReceives : Prop := ∀ n : Fin 10000, 0 < cnt a n

end Cert.Spec

end
-- ==== Proof.ValDefs.lean ====
import proofs.«403595_j11347303596608_3_alg».proof.Proof.IdealMain
import proofs.«403595_j11347303596608_3_alg».proof.Proof.Spec

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame

variable (m : (ℓ : Loc nD τ sig) → Buf (Elt Ideal) ℓ) (ρ : Dev nD → PrngReg)

def inp (c : Dev nD) : Cert.Spec.Inp :=
  ⟨m ((c.tc : Thread nD τ).loc main_arg0),
   m ((c.tc : Thread nD τ).loc main_arg1),
   m ((c.tc : Thread nD τ).loc main_arg2),
   m ((c.tc : Thread nD τ).loc main_arg3),
   m ((c.tc : Thread nD τ).loc main_arg4),
   m ((c.tc : Thread nD τ).loc main_arg5),
   m ((c.tc : Thread nD τ).loc main_arg6),
   m ((c.tc : Thread nD τ).loc main_arg7),
   m ((c.tc : Thread nD τ).loc main_arg8),
   m ((c.tc : Thread nD τ).loc main_arg9),
   m ((c.tc : Thread nD τ).loc main_arg10),
   m ((c.tc : Thread nD τ).loc main_arg11),
   m ((c.tc : Thread nD τ).loc main_arg12)⟩

abbrev phiArr (c : Dev nD) : S10000x384.Idx → EReal := V2 (F := Ideal) m ρ c main_v3
abbrev accArr (c : Dev nD) : S2x10000x512.Idx → EReal := V4 (F := Ideal) m ρ c main_v19
abbrev resS (c : Dev nD) : S10000x128.Idx → EReal := W7 (F := Ideal) m ρ c (Proc.devRef .tc main_v45)
abbrev resV (c : Dev nD) : S10000x128x3.Idx → EReal := W7 (F := Ideal) m ρ c (Proc.devRef .tc main_v50)

end Cert.KernelIdeal.Val

end
-- ==== Proof.LibSageSpec.lean ====
import Idealize.ShloMosaic.PureOps.Ideal
import Idealize.ShloMosaic.PureOps.Ideal.Laws
import Idealize.ShloMosaic.Lib.ValueIdx

noncomputable section

open scoped BigOperators

namespace Idealize.ShloMosaic.SageSpec

open Idealize.ShloMosaic Idealize.ShloMosaic.ValueIdx

abbrev Mat (n m : Nat) : Type := (⟨2, ![n, m]⟩ : Shape).Idx → EReal

def rowDot {n k m : Nat} (x : Mat n k) (W : Mat k m) (p : Fin n) (q : Fin m) : EReal :=
  ∑ j : Fin k, x (ix2 p j) * W (ix2 j q)

structure PlainDot {n k m : Nat} (d : DotDims ⟨2, ![n, k]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx), (d.lhsIdx i q 0).val = (i 0).val
  l1 : ∀ (i : (⟨2, ![n, m]⟩ : Shape).Idx) (q : d.contr.Idx) (h : 0 < d.contr.rank), (d.lhsIdx i q 1).val = (q ⟨0, h⟩).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![n, k]⟩ ⟨2, ![k, m]⟩ ⟨2, ![n, m]⟩}

theorem PlainDot.sum_eq (hd : PlainDot d) (a : Mat n k) (w : Mat k m) (j : (⟨2, ![n, m]⟩ : Shape).Idx) :
    ∑ q : d.contr.Idx, a (d.lhsIdx j q) * w (d.rhsIdx j q) = rowDot a w (j 0) (j 1) := by
  have h0 : 0 < d.contr.rank := by rw [hd.rank]; exact Nat.one_pos
  unfold rowDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 (j 0) κ := funext fun a => Fin.ext (by
    match a with
    | ⟨0, _⟩ => exact hd.l0 _ _
    | ⟨1, _⟩ => exact (hd.l1 _ _ h0).trans hk)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

theorem matmul_zero_at {φ₁ φ₂ : FTy} (hd : PlainDot d) (prec : Option ContractPrecision) (a : FVec Ideal ⟨2, ![n, k]⟩ φ₁)
    (w : FVec Ideal ⟨2, ![k, m]⟩ φ₂) (j : (⟨2, ![n, m]⟩ : Shape).Idx) :
    FloatOps.matmul d prec a w (constant ⟨2, ![n, m]⟩ .f32 0x00000000#32) j = rowDot (fun i => a i) (fun i => w i) (j 0) (j 1) := by
  rw [Ideal.matmul_constant_zero_apply]
  exact hd.sum_eq (fun i => a i) (fun i => w i) j

end

end Idealize.ShloMosaic.SageSpec

end
-- ==== Proof.ValNode.lean ====
import proofs.«403595_j11347303596608_3_alg».proof.Proof.ValDefs
import proofs.«403595_j11347303596608_3_alg».proof.Proof.LibSageSpec
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame

variable (m : (ℓ : Loc nD τ sig) → Buf (Elt Ideal) ℓ) (ρ : Dev nD → PrngReg)

namespace Node

-- Both products contract the left operand's columns with the right operand's rows, with no batch axes.
theorem plainH : SageSpec.PlainDot dot_S2000x128_S128x128_S2000x128_1_0_0_1_n_n where
  rank := rfl
  size := fun _ => rfl
  l0 := fun i q => by unfold DotDims.lhsIdx; rw [dif_neg, dif_pos]; rfl; all_goals decide
  l1 := fun i q _ => DotDims.lhsIdx_val_of_single _ rfl i q
  r0 := fun i q _ => DotDims.rhsIdx_val_of_single _ rfl i q
  r1 := fun i q => by unfold DotDims.rhsIdx; rw [dif_neg, dif_pos]; rfl; all_goals decide

theorem plainO : SageSpec.PlainDot dot_S2000x128_S128x384_S2000x384_1_0_0_1_n_n where
  rank := rfl
  size := fun _ => rfl
  l0 := fun i q => by unfold DotDims.lhsIdx; rw [dif_neg, dif_pos]; rfl; all_goals decide
  l1 := fun i q _ => DotDims.lhsIdx_val_of_single _ rfl i q
  r0 := fun i q _ => DotDims.rhsIdx_val_of_single _ rfl i q
  r1 := fun i q => by unfold DotDims.rhsIdx; rw [dif_neg, dif_pos]; rfl; all_goals decide

theorem preact_apply (x0 : Vec Ideal S2000x128 .f32) (x1 : Vec Ideal S128x128 .f32) (x2 : Vec Ideal S1x128 .f32) (r : Fin 2000) (k : Fin 128) :
    addf (matmul dot_S2000x128_S128x128_S2000x128_1_0_0_1_n_n none (truncf .bf16 x0 bitsLt_bf16_f32) (truncf .bf16 x1 bitsLt_bf16_f32)
        (constant (F := Ideal) S2000x128 .f32 0x00000000#32)) (broadcastTo S2000x128 x2 broadcasts_S1x128_S2000x128) (ix2 r k)
      = (∑ l : Fin 128, x0 (ix2 r l) * x1 (ix2 l k)) + x2 (ix2 (0 : Fin 1) k) :=
  congrArg₂ (· + ·) (SageSpec.matmul_zero_at plainH none _ _ (ix2 r k)) (broadcastTo_1b_ab_apply _ _ r k)

theorem V1_arg5 (c : Dev nD) : (V1 m ρ c main_arg5 : S10000x128.Idx → EReal) = (inp m c).sf :=
  StableHlo.after_of_writes_sub hostOps0 _ hostOps0_writes (by decide)
theorem V1_arg7 (c : Dev nD) : (V1 m ρ c main_arg7 : S128x128.Idx → EReal) = (inp m c).W1 :=
  StableHlo.after_of_writes_sub hostOps0 _ hostOps0_writes (by decide)
theorem V1_arg9 (c : Dev nD) : (V1 m ρ c main_arg9 : S128x384.Idx → EReal) = (inp m c).W2 :=
  StableHlo.after_of_writes_sub hostOps0 _ hostOps0_writes (by decide)
theorem V1_v0 (c : Dev nD) (k : Fin 128) : (V1 m ρ c main_v0 : S1x128.Idx → EReal) (ix2 (0 : Fin 1) k) = (inp m c).b1 (ix1 k) := by
  show StableHlo.after hostOps0 (W0 m ρ c) (Proc.devRef .tc main_v0) (ix2 (0 : Fin 1) k) = _
  after_results
  exact shapeCast_a_1a_apply _ _ (0 : Fin 1) k
theorem V1_v1 (c : Dev nD) (q : Fin 384) : (V1 m ρ c main_v1 : S1x384.Idx → EReal) (ix2 (0 : Fin 1) q) = (inp m c).b2 (ix1 q) := by
  show StableHlo.after hostOps0 (W0 m ρ c) (Proc.devRef .tc main_v1) (ix2 (0 : Fin 1) q) = _
  after_results
  exact shapeCast_a_1a_apply _ _ (0 : Fin 1) q

theorem hz : (![0, 0] : Fin 2 → Nat) = fun _ => 0 := funext fun a => match a with | ⟨0, _⟩ => rfl | ⟨1, _⟩ => rfl

theorem idx_zero : ∀ (t : Fin cfg0.N) (a : Fin 2),
    win0_1.index t a = 0 ∧ win0_2.index t a = 0 ∧ win0_3.index t a = 0 ∧ win0_4.index t a = 0 :=
  (by decide +kernel : ∀ t : Fin grid0.N, _)

theorem idx_row : ∀ t : Fin cfg0.N,
    win0_0.index t (0 : Fin 2) = t.val ∧ win0_0.index t (1 : Fin 2) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b))

theorem iblk0_0_apply (c : Dev nD) (t : Fin cfg0.N) (x : S2000x128.Idx) (k : S10000x128.Idx)
    (hk0 : (k 0).val = 2000 * t.val + (x 0).val) (hk1 : (k 1).val = (x 1).val) :
    (iblk0 V c 0 t : Vec Ideal S2000x128 .f32) x = (V c main_arg5 : S10000x128.Idx → EReal) k := by
  obtain ⟨e0, e1, -⟩ := idx_row t
  show V c main_arg5 (((cfg0.win 0).blk t).view.emb x) = V c main_arg5 k
  refine congrArg _ (funext fun a => Fin.ext ?_)
  match a with
  | ⟨0, _⟩ => show win0_0.index t (0 : Fin 2) * 2000 + 1 * (x 0).val = (k 0).val; omega
  | ⟨1, _⟩ => show win0_0.index t (1 : Fin 2) * 128 + 1 * (x 1).val = (k 1).val; omega

theorem iblk0_1_eq (c : Dev nD) (t : Fin cfg0.N) : (iblk0 V c 1 t : Vec Ideal S128x128 .f32) = (V c main_arg7 : S128x128.Idx → EReal) :=
  funext fun x => congrArg (V c main_arg7) (funext fun a => Fin.ext (win0_1.rect_emb_val_of_index_zero t a (idx_zero t a).1 x))
theorem iblk0_2_eq (c : Dev nD) (t : Fin cfg0.N) : (iblk0 V c 2 t : Vec Ideal S1x128 .f32) = (V c main_v0 : S1x128.Idx → EReal) :=
  funext fun x => congrArg (V c main_v0) (funext fun a => Fin.ext (win0_2.rect_emb_val_of_index_zero t a (idx_zero t a).2.1 x))
theorem iblk0_3_eq (c : Dev nD) (t : Fin cfg0.N) : (iblk0 V c 3 t : Vec Ideal S128x384 .f32) = (V c main_arg9 : S128x384.Idx → EReal) :=
  funext fun x => congrArg (V c main_arg9) (funext fun a => Fin.ext (win0_3.rect_emb_val_of_index_zero t a (idx_zero t a).2.2.1 x))
theorem iblk0_4_eq (c : Dev nD) (t : Fin cfg0.N) : (iblk0 V c 4 t : Vec Ideal S1x384 .f32) = (V c main_v1 : S1x384.Idx → EReal) :=
  funext fun x => congrArg (V c main_v1) (funext fun a => Fin.ext (win0_4.rect_emb_val_of_index_zero t a (idx_zero t a).2.2.2 x))

end Blocks

-- The stored value at (r, j), the loaded blocks being row n of the features, the weights and the bias rows: the perceptron at (n, j).
theorem blk_phi (a : Cert.Spec.Inp) (n : Fin 10000) (r : Fin 2000) (j : Fin 384)
    (x0 : Vec Ideal S2000x128 .f32) (x1 : Vec Ideal S128x128 .f32) (x2 : Vec Ideal S1x128 .f32) (x3 : Vec Ideal S128x384 .f32) (x4 : Vec Ideal S1x384 .f32)
    (h0 : ∀ l : Fin 128, x0 (ix2 r l) = a.sf (ix2 n l)) (h1 : x1 = a.W1)
    (h2 : ∀ k : Fin 128, x2 (ix2 (0 : Fin 1) k) = a.b1 (ix1 k)) (h3 : x3 = a.W2)
    (h4 : x4 (ix2 (0 : Fin 1) j) = a.b2 (ix1 j)) :
    k0_pay1 (F := Ideal) x0 x1 x2 x3 x4 (ix2 r j) = Cert.Spec.phi a n j := by
  subst h1 h3
  unfold k0_pay1
  refine (congrArg₂ (· + ·) (SageSpec.matmul_zero_at plainO none _ _ (ix2 r j)) (broadcastTo_1b_ab_apply _ _ r j)).trans ?_
  rw [shapeCast_self, shapeCast_self, h4]
  unfold Cert.Spec.phi SageSpec.rowDot
  refine congrArg (· + a.b2 (ix1 j)) (Finset.sum_congr rfl fun k _ => congrArg (· * a.W2 (ix2 k j)) ?_)
  have hs := preact_apply x0 a.W1 x2 r k
  simp only [h0, h2] at hs
  unfold Cert.Spec.hid Cert.Spec.silu
  rw [← hs]
  rfl

def phiG (a : Cert.Spec.Inp) : S10000x384.Idx → EReal := fun i => Cert.Spec.phi a (i 0) (i 1)

-- Block t of the result is the perceptron on rows 2000·t … 2000·t + 1999.
theorem flushed5_eq (c : Dev nD) (t : Fin cfg0.N) :
    (dat0 (V1 m ρ) c).flushed 5 t = ((cfg0.win 5).blk t).view.read (Elt Ideal) (phiG (inp m c)) := by
  show (cfg0.win 5).cut (grid0.coords t) ((dat0 (V1 m ρ) c).after 5 t) = _
  rw [after0_5]
  unfold out0_5
  rw [View.canon_unit_zero hz]
  simp only [View.ld_unit_zero (S := S2000x128) hz, View.ld_unit_zero (S := S128x128) hz, View.ld_unit_zero (S := S1x128) hz,
    View.ld_unit_zero (S := S128x384) hz, View.ld_unit_zero (S := S1x384) hz]
  obtain ⟨-, -, e0, e1⟩ := idx_row t
  have htN : t.val < 5 := lt_of_lt_of_eq t.isLt N_0
  funext y
  obtain ⟨p, q, rfl⟩ : ∃ (p : Fin 2000) (q : Fin 384), y = ix2 p q := ⟨y 0, y 1, eq_ix2 y⟩
  have hp : p.val < 2000 := p.isLt
  show k0_pay1 (F := Ideal) (iblk0 (V1 m ρ) c 0 t) (iblk0 (V1 m ρ) c 1 t) (iblk0 (V1 m ρ) c 2 t) (iblk0 (V1 m ρ) c 3 t) (iblk0 (V1 m ρ) c 4 t) (ix2 p q)
    = phiG (inp m c) (((cfg0.win 5).blk t).view.emb (ix2 p q))
  have en : ((cfg0.win 5).blk t).view.emb (ix2 p q) 0 = (⟨2000 * t.val + p.val, by omega⟩ : Fin 10000) :=
    Fin.ext (by show win0_5.index t (0 : Fin 2) * 2000 + 1 * p.val = 2000 * t.val + p.val; omega)
  have eq : ((cfg0.win 5).blk t).view.emb (ix2 p q) 1 = q :=
    Fin.ext (by show win0_5.index t (1 : Fin 2) * 384 + 1 * q.val = q.val; omega)
  unfold phiG
  rw [en, eq]
  refine blk_phi (inp m c) ⟨2000 * t.val + p.val, by omega⟩ p q _ _ _ _ _ ?_ ?_ ?_ ?_ ?_
  · exact fun l => (iblk0_0_apply (V1 m ρ) c t (ix2 p l) (ix2 ⟨2000 * t.val + p.val, by omega⟩ l) rfl rfl).trans (congrFun (V1_arg5 m ρ c) _)
  · exact (iblk0_1_eq (V1 m ρ) c t).trans (V1_arg7 m ρ c)
  · exact fun k => (congrFun (iblk0_2_eq (V1 m ρ) c t) _).trans (V1_v0 m ρ c k)
  · exact (iblk0_3_eq (V1 m ρ) c t).trans (V1_arg9 m ρ c)
  · exact (congrFun (iblk0_4_eq (V1 m ρ) c t) _).trans (V1_v1 m ρ c q)

-- The five blocks of 2000 rows tile the array: row n lies in block n / 2000.
theorem cover5 (i : S10000x384.Idx) :
    ∃ t : Fin cfg0.N, (cfg0.win 5).flush t = true ∧ i ∈ ((cfg0.win 5).blk t).view.set := by
  have hi0 : (i 0).val < 10000 := (i 0).isLt
  have hi1 : (i 1).val < 384 := (i 1).isLt
  have ht : (i 0).val / 2000 < cfg0.N := lt_of_lt_of_eq (by omega) N_0.symm
  obtain ⟨-, -, e0, e1⟩ := idx_row ⟨(i 0).val / 2000, ht⟩
  refine ⟨⟨(i 0).val / 2000, ht⟩, flush0_5 _, ?_⟩
  show i ∈ ((View.whole main_v3).slice (win0_5.rect ⟨(i 0).val / 2000, ht⟩)).set
  rw [View.set_slice_whole, Rect.mem_set_unit]
  intro a
  match a with
  | ⟨0, _⟩ =>
    show win0_5.index ⟨(i 0).val / 2000, ht⟩ (0 : Fin 2) * 2000 ≤ (i 0).val
      ∧ (i 0).val < win0_5.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_5.index ⟨(i 0).val / 2000, ht⟩ (1 : Fin 2) * 384 ≤ (i 1).val
      ∧ (i 1).val < win0_5.index ⟨(i 0).val / 2000, ht⟩ (1 : Fin 2) * 384 + 384
    rw [e1]; omega

end Node

theorem phiArr_apply (c : Dev nD) (n : Fin 10000) (j : Fin 384) :
    phiArr m ρ c (ix2 n j) = Cert.Spec.phi (inp m c) n j :=
  congrFun ((W2_arr m ρ c 5).trans ((dat0 (V1 m ρ) c).arrAt_eq_of_cover 5 (Node.phiG (inp m c))
    (fun t _ => Node.flushed5_eq m ρ c t) Node.cover5)) (ix2 n j)

end Cert.KernelIdeal.Val

end
-- ==== Proof.ValEntry.lean ====
import proofs.«403595_j11347303596608_3_alg».proof.Proof.ValNode
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame

variable (m : (ℓ : Loc nD τ sig) → Buf (Elt Ideal) ℓ) (ρ : Dev nD → PrngReg)

theorem entry_W2_launch (c : Dev nD) (b : Ref sig .tc) (h0 : b ∉ hostOps0_W) (h1 : ∀ w, Pipeline.arrRef spec0 w ≠ b) :
    W2 (F := Ideal) m ρ c (Proc.devRef .tc b) = m ((c : Thread nD τ).loc b) :=
  (W2_of_ne m ρ c b h1).trans (StableHlo.after_of_writes_sub hostOps0 _ hostOps0_writes h0)

theorem entry_V3_launch (c : Dev nD) (b : Ref sig .tc) (h0 : b ∉ hostOps0_W) (h1 : ∀ w, Pipeline.arrRef spec0 w ≠ b)
    (h2 : b ∉ hostOps1_W) : V3 (F := Ideal) m ρ c b = m ((c : Thread nD τ).loc b) :=
  (StableHlo.after_of_writes_sub hostOps1 _ hostOps1_writes h2).trans (entry_W2_launch m ρ c b h0 h1)

-- A vector viewed as one column: entry (e, 0) of the column is entry e of the vector.
theorem entry_shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_two, Shape.rowMajor_val_one]
    show i.val = i.val * 1 + u.val
    omega)

theorem V3_idxI (c : Dev nD) (e : Fin 320000) :
    (V3 (F := Ideal) m ρ c main_v14 : S320000x1.Idx → BitVec 32) (ix2 e (0 : Fin 1)) = (inp m c).idxI (ix1 e) := by
  show StableHlo.after hostOps1 _ (Proc.devRef .tc main_v14) (ix2 e (0 : Fin 1)) = _
  after_results
  exact (entry_shapeCast_a_a1_apply _ _ e 0).trans (congrFun (entry_W2_launch m ρ c main_arg0 (by decide) (by decide)) (ix1 e))

theorem V3_idxJ (c : Dev nD) (e : Fin 320000) :
    (V3 (F := Ideal) m ρ c main_v15 : S320000x1.Idx → BitVec 32) (ix2 e (0 : Fin 1)) = (inp m c).idxJ (ix1 e) := by
  show StableHlo.after hostOps1 _ (Proc.devRef .tc main_v15) (ix2 e (0 : Fin 1)) = _
  after_results
  exact (entry_shapeCast_a_a1_apply _ _ e 0).trans (congrFun (entry_W2_launch m ρ c main_arg1 (by decide) (by decide)) (ix1 e))

theorem V3_rdir (c : Dev nD) : (V3 (F := Ideal) m ρ c main_arg2 : S320000x3.Idx → EReal) = (inp m c).rdir :=
  entry_V3_launch m ρ c main_arg2 (by decide) (by decide) (by decide)

theorem V3_dist (c : Dev nD) (e : Fin 320000) :
    (V3 (F := Ideal) m ρ c main_v16 : S320000x1.Idx → EReal) (ix2 e (0 : Fin 1)) = (inp m c).dist (ix1 e) := by
  show StableHlo.after hostOps1 _ (Proc.devRef .tc main_v16) (ix2 e (0 : Fin 1)) = _
  after_results
  exact (entry_shapeCast_a_a1_apply _ _ e 0).trans (congrFun (entry_W2_launch m ρ c main_arg3 (by decide) (by decide)) (ix1 e))

theorem V3_rbf (c : Dev nD) : (V3 (F := Ideal) m ρ c main_arg4 : S320000x20.Idx → EReal) = (inp m c).rbf :=
  entry_V3_launch m ρ c main_arg4 (by decide) (by decide) (by decide)

theorem V3_Wr (c : Dev nD) : (V3 (F := Ideal) m ρ c main_arg11 : S20x384.Idx → EReal) = (inp m c).Wr :=
  entry_V3_launch m ρ c main_arg11 (by decide) (by decide) (by decide)

theorem V3_br (c : Dev nD) (q : Fin 384) :
    (V3 (F := Ideal) m ρ c main_v2 : S1x384.Idx → EReal) (ix2 (0 : Fin 1) q) = (inp m c).br (ix1 q) := by
  refine (congrFun ((StableHlo.after_of_writes_sub hostOps1 _ hostOps1_writes (by decide)).trans
    (W2_of_ne m ρ c main_v2 (by decide))) _).trans ?_
  show StableHlo.after hostOps0 _ (Proc.devRef .tc main_v2) (ix2 (0 : Fin 1) q) = _
  after_results
  exact shapeCast_a_1a_apply _ _ (0 : Fin 1) q

theorem V3_iota (c : Dev nD) (n : Fin 10000) :
    (V3 (F := Ideal) m ρ c main_v18 : S1x10000.Idx → BitVec 32) (ix2 (0 : Fin 1) n) = BitVec.ofNat 32 n.val := by
  show StableHlo.after hostOps1 _ (Proc.devRef .tc main_v18) (ix2 (0 : Fin 1) n) = _
  after_results
  exact (shapeCast_a_1a_apply _ _ (0 : Fin 1) n).trans rfl

-- Four blocks of columns side by side (384, then three of 128) read at column j: the block the column falls in.
theorem entry_concat4_apply {α : Type} (A : S10000x384.Idx → α) (B0 B1 B2 : S10000x128.Idx → α)
    (h : Shape.Concatenates [S10000x384, S10000x128, S10000x128, S10000x128] S10000x768 1)
    (n : Fin 10000) (j : Fin 768) :
    concatenate S10000x768 1 [⟨S10000x384, A⟩, ⟨S10000x128, B0⟩, ⟨S10000x128, B1⟩, ⟨S10000x128, B2⟩] h (ix2 n j)
      = if h0 : j.val < 384 then A (ix2 n ⟨j.val, h0⟩)
        else if h1 : j.val < 512 then B0 (ix2 n ⟨j.val - 384, by omega⟩)
        else if h2 : j.val < 640 then B1 (ix2 n ⟨j.val - 512, by omega⟩)
        else B2 (ix2 n ⟨j.val - 640, by have := j.isLt; omega⟩) := by
  have P := concatenate_apply_piece (t := S10000x768) (1 : Fin S10000x768.rank)
    [⟨S10000x384, A⟩, ⟨S10000x128, B0⟩, ⟨S10000x128, B1⟩, ⟨S10000x128, B2⟩] h (ix2 n j)
  split_ifs with h0 h1 h2
  · exact P 0 (by show 0 < 4; omega) S10000x384 A rfl rfl 0 rfl (ix2 n ⟨j.val, h0⟩)
      (fun b hb => by match b with | ⟨0, _⟩ => rfl | ⟨1, _⟩ => exact absurd rfl hb) (by show 0 + j.val = j.val; omega)
  · exact P 1 (by show 1 < 4; omega) S10000x128 B0 rfl rfl 384 rfl (ix2 n ⟨j.val - 384, by omega⟩)
      (fun b hb => by match b with | ⟨0, _⟩ => rfl | ⟨1, _⟩ => exact absurd rfl hb) (by show 384 + (j.val - 384) = j.val; omega)
  · exact P 2 (by show 2 < 4; omega) S10000x128 B1 rfl rfl 512 rfl (ix2 n ⟨j.val - 512, by omega⟩)
      (fun b hb => by match b with | ⟨0, _⟩ => rfl | ⟨1, _⟩ => exact absurd rfl hb) (by show 512 + (j.val - 512) = j.val; omega)
  · exact P 3 (by show 3 < 4; omega) S10000x128 B2 rfl rfl 640 rfl (ix2 n ⟨j.val - 640, by have := j.isLt; omega⟩)
      (fun b hb => by match b with | ⟨0, _⟩ => rfl | ⟨1, _⟩ => exact absurd rfl hb) (by show 640 + (j.val - 640) = j.val; omega)

-- One component of the node vectors as a [10000, 128] array (the slice at the component, its unit axis dropped), at (n, f).
theorem entry_comp_apply (X : FVec Ideal S10000x128x3 .f32) (o : Nat) (h : S10000x128x3.Slices ![0, 0, o] S10000x128x1)
    (h' : S10000x128x1.ShapeCasts S10000x128) (hb : FTy.bits .bf16 < FTy.bits .f32)
    (n : Fin 10000) (f : Fin 128) (k : Fin 3) (hk : k.val = o) :
    (truncf .bf16 (shapeCast S10000x128 (extractStridedSlice S10000x128x1 ![0, 0, o] X h) h') hb : FVec Ideal S10000x128 .bf16) (ix2 n f)
      = X (ix3 n f k) := by
  show shapeCast S10000x128 (extractStridedSlice S10000x128x1 ![0, 0, o] X h) h' (ix2 n f) = X (ix3 n f k)
  refine (shapeCast_apply _ _ (ix2 n f) (ix3 n f (0 : Fin 1)) ?_).trans ?_
  · rw [Shape.rowMajor_val_two, Shape.rowMajor_val_three]
    show (n.val * 128 + f.val) * 1 + 0 = n.val * 128 + f.val
    omega
  · refine extractStridedSlice_apply _ _ _ _ _ (fun ax => ?_)
    match ax with
    | ⟨0, _⟩ => exact (Nat.zero_add _).symm
    | ⟨1, _⟩ => exact (Nat.zero_add _).symm
    | ⟨2, _⟩ => show k.val = o + 0; omega

theorem V3_table (c : Dev nD) (n : Fin 10000) (j : Fin 768) :
    (V3 (F := Ideal) m ρ c main_v13 : S10000x768.Idx → EReal) (ix2 n j) = Cert.Spec.tableS (inp m c) n j := by
  have eV : (W2 (F := Ideal) m ρ c (Proc.devRef .tc main_arg6) : FVec Ideal S10000x128x3 .f32) = (inp m c).vf :=
    entry_W2_launch m ρ c main_arg6 (by decide) (by decide)
  have hj := j.isLt
  show StableHlo.after hostOps1 _ (Proc.devRef .tc main_v13) (ix2 n j) = _
  after_results
  dsimp only [Matrix.cons_val]
  repeat (first
    | rw [StableHlo.unary_result] | rw [StableHlo.reshape_result]
    | (rw [StableHlo.unary_result_ne]; rotate_left; decide)
    | (rw [StableHlo.reshape_result_ne]; rotate_left; decide))
  refine (entry_concat4_apply _ _ _ _ _ n j).trans ?_
  unfold Cert.Spec.tableS
  split
  · next h0 => exact phiArr_apply m ρ c n ⟨j.val, h0⟩
  · next h0 =>
    split_ifs with h1 h2 <;>
      refine (entry_comp_apply _ _ _ _ _ n _ ⟨(j.val - 384) / 128, by omega⟩ (by show (j.val - 384) / 128 = _; omega)).trans ?_ <;>
      refine (congrFun eV _).trans (congrArg _ (funext fun ax => ?_)) <;>
      (match ax with
        | ⟨0, _⟩ => rfl
        | ⟨1, _⟩ => apply Fin.ext; show j.val - _ = (j.val - 384) % 128; omega
        | ⟨2, _⟩ => rfl)

end Cert.KernelIdeal.Val

end
-- ==== Proof.LibColDot.lean ====
import Idealize.ShloMosaic.PureOps.Ideal
import Idealize.ShloMosaic.PureOps.Ideal.Laws
import Idealize.ShloMosaic.Lib.ValueIdx

noncomputable section

open scoped BigOperators

namespace Idealize.ShloMosaic.ColDotSpec

open Idealize.ShloMosaic Idealize.ShloMosaic.ValueIdx

def colDot {n k m : Nat} (a : (⟨2, ![k, n]⟩ : Shape).Idx → EReal) (w : (⟨2, ![k, m]⟩ : Shape).Idx → EReal)
    (p : Fin n) (q : Fin m) : EReal :=
  ∑ κ : Fin k, a (ix2 κ p) * w (ix2 κ q)

structure ColDot {n k m : Nat} (d : DotDims ⟨2, ![k, n]⟩ ⟨2, ![k, m]⟩ ⟨2, ![n, m]⟩) : Prop where
  rank : d.contr.rank = 1
  size : ∀ h : 0 < d.contr.rank, d.contr.size ⟨0, h⟩ = k
  l0 : ∀ (i : (⟨2, ![n, m]⟩ : Shape).Idx) (q : d.contr.Idx) (h : 0 < d.contr.rank), (d.lhsIdx i q 0).val = (q ⟨0, h⟩).val
  l1 : ∀ (i : (⟨2, ![n, m]⟩ : Shape).Idx) (q : d.contr.Idx), (d.lhsIdx i q 1).val = (i 0).val
  r0 : ∀ (i : (⟨2, ![n, m]⟩ : Shape).Idx) (q : d.contr.Idx) (h : 0 < d.contr.rank), (d.rhsIdx i q 0).val = (q ⟨0, h⟩).val
  r1 : ∀ (i : (⟨2, ![n, m]⟩ : Shape).Idx) (q : d.contr.Idx), (d.rhsIdx i q 1).val = (i 1).val

section
variable {n k m : Nat} {d : DotDims ⟨2, ![k, n]⟩ ⟨2, ![k, m]⟩ ⟨2, ![n, m]⟩}

theorem ColDot.sum_eq (hd : ColDot d) (a : (⟨2, ![k, n]⟩ : Shape).Idx → EReal) (w : (⟨2, ![k, m]⟩ : Shape).Idx → EReal)
    (j : (⟨2, ![n, m]⟩ : Shape).Idx) :
    ∑ q : d.contr.Idx, a (d.lhsIdx j q) * w (d.rhsIdx j q) = colDot a w (j 0) (j 1) := by
  have h0 : 0 < d.contr.rank := by rw [hd.rank]; exact Nat.one_pos
  unfold colDot
  rw [← Equiv.sum_comp (contrEquiv1 d k hd.rank (hd.size _)).symm]
  refine Finset.sum_congr rfl fun κ _ => ?_
  have hk := contrEquiv1_symm_val d k hd.rank (hd.size _) κ
  have el : d.lhsIdx j ((contrEquiv1 d k hd.rank (hd.size _)).symm κ) = ix2 κ (j 0) := funext fun a => Fin.ext (by
    match a with
    | ⟨0, _⟩ => exact (hd.l0 _ _ h0).trans hk
    | ⟨1, _⟩ => exact hd.l1 _ _)
  have er : d.rhsIdx j ((contrEquiv1 d k hd.rank (hd.size _)).symm κ) = ix2 κ (j 1) := funext fun a => Fin.ext (by
    match a with
    | ⟨0, _⟩ => exact (hd.r0 _ _ h0).trans hk
    | ⟨1, _⟩ => exact hd.r1 _ _)
  rw [el, er] <;> rfl

theorem matmul_zero_colAt {φ₁ φ₂ : FTy} (hd : ColDot d) (prec : Option ContractPrecision) (a : FVec Ideal ⟨2, ![k, n]⟩ φ₁)
    (w : FVec Ideal ⟨2, ![k, m]⟩ φ₂) (j : (⟨2, ![n, m]⟩ : Shape).Idx) :
    FloatOps.matmul d prec a w (constant ⟨2, ![n, m]⟩ .f32 0x00000000#32) j = colDot (fun i => a i) (fun i => w i) (j 0) (j 1) := by
  rw [Ideal.matmul_constant_zero_apply]
  exact hd.sum_eq (fun i => a i) (fun i => w i) j

end

end Idealize.ShloMosaic.ColDotSpec

end
-- ==== Proof.EdgeBlock.lean ====
import proofs.«403595_j11347303596608_3_alg».proof.Proof.Gen.KernelIdeal.Skeleton
import proofs.«403595_j11347303596608_3_alg».proof.Proof.LibColDot
import proofs.«403595_j11347303596608_3_alg».proof.Proof.LibSageSpec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.EdgeBlock

open Idealize.ShloMosaic Idealize.ShloMosaic.ValueIdx Cert.KernelIdeal Cert.KernelIdeal.Gen

def hot (w : BitVec 32) (n : Fin 10000) : EReal := if w = BitVec.ofNat 32 n.val then 1 else 0

private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

private theorem cmpi_eq_one_iff (a b : BitVec 32) : IntOp.cmpi .eq a b = 1#1 ↔ a = b := by
  show BitVec.ofBool (a == b) = 1#1 ↔ a = b
  by_cases h : a = b
  · subst h; rw [beq_self_eq_true]; exact ⟨fun _ => rfl, fun _ => rfl⟩
  · rw [beq_eq_false_iff_ne.mpr h]; exact ⟨fun h1 => absurd h1 (by decide), fun h1 => absurd h1 h⟩

/-- The index column compared with the row of node numbers is the 0/1 matrix of "row r's word is node n". -/
theorem hotMat_apply (w : Vec Ideal S128x1 .i32) (x8 : Vec Ideal S1x10000 .i32)
    (hiota : ∀ n : Fin 10000, x8 (ix2 (0 : Fin 1) n) = BitVec.ofNat 32 n.val) (r : Fin 128) (n : Fin 10000) :
    k1_pay3 (F := Ideal) w x8 (ix2 r n) = hot (w (ix2 r (0 : Fin 1))) n := by
  unfold k1_pay3 k1_pay2
  rw [truncf_apply, sitofp_apply, extui_apply]
  show FloatOps.sitofp (F := Ideal) .f32 ((IntOp.cmpi .eq _ _).setWidth 32) = _
  rw [broadcastTo_a1_ab_apply, broadcastTo_1b_ab_apply, shapeCast_self, shapeCast_self, hiota]
  unfold hot
  by_cases h : w (ix2 r (0 : Fin 1)) = BitVec.ofNat 32 n.val
  · rw [if_pos h, (cmpi_eq_one_iff _ _).mpr h]
    show (((BitVec.setWidth 32 1#1).toInt : ℝ) : EReal) = 1
    simp
  · rw [if_neg h, eq_zero_of_ne_one (fun h1 => h ((cmpi_eq_one_iff _ _).mp h1))]
    show (((BitVec.setWidth 32 0#1).toInt : ℝ) : EReal) = 0
    simp

theorem plain_gat : SageSpec.PlainDot dot_S128x10000_S10000x768_S128x768_1_0_0_1_n_n where
  rank := rfl
  size := fun _ => rfl
  l0 := fun i q => by unfold DotDims.lhsIdx; rw [dif_neg (by decide), dif_pos (by decide)]; rfl
  l1 := fun i q _ => DotDims.lhsIdx_val_of_single _ rfl i q
  r0 := fun i q _ => DotDims.rhsIdx_val_of_single _ rfl i q
  r1 := fun i q => by unfold DotDims.rhsIdx; rw [dif_neg (by decide), dif_pos (by decide)]; rfl

theorem plain_rad : SageSpec.PlainDot dot_S128x20_S20x384_S128x384_1_0_0_1_n_n where
  rank := rfl
  size := fun _ => rfl
  l0 := fun i q => by unfold DotDims.lhsIdx; rw [dif_neg (by decide), dif_pos (by decide)]; rfl
  l1 := fun i q _ => DotDims.lhsIdx_val_of_single _ rfl i q
  r0 := fun i q _ => DotDims.rhsIdx_val_of_single _ rfl i q
  r1 := fun i q => by unfold DotDims.rhsIdx; rw [dif_neg (by decide), dif_pos (by decide)]; rfl

/-- The scatter product contracts the edges' axis of both operands. -/
theorem col_sca : ColDotSpec.ColDot dot_S128x10000_S128x256_S10000x256_0_0_1_1_n_n where
  rank := rfl
  size := fun _ => rfl
  l0 := fun i q _ => DotDims.lhsIdx_val_of_single _ rfl i q
  l1 := fun i q => by unfold DotDims.lhsIdx; rw [dif_neg (by decide), dif_pos (by decide)]; rfl
  r0 := fun i q _ => DotDims.rhsIdx_val_of_single _ rfl i q
  r1 := fun i q => by unfold DotDims.rhsIdx; rw [dif_neg (by decide), dif_pos (by decide)]; rfl

variable (x0 x1 : Vec Ideal S128x1 .i32) (x2 : Vec Ideal S128x3 .f32) (x3 : Vec Ideal S128x1 .f32) (x4 : Vec Ideal S128x20 .f32)
  (x5 : Vec Ideal S10000x768 .bf16) (x6 : Vec Ideal S20x384 .f32) (x7 : Vec Ideal S1x384 .f32) (x8 : Vec Ideal S1x10000 .i32)

/-- The 0/1 row of row r's sender word against the table: one term survives when the word is a node number. -/
def gath (r : Fin 128) (c : Fin 768) : EReal := ∑ n : Fin 10000, hot (x1 (ix2 r (0 : Fin 1))) n * x5 (ix2 n c)

def wgB (r : Fin 128) (c : Fin 384) : EReal :=
  ((∑ k : Fin 20, x4 (ix2 r k) * x6 (ix2 k c)) + x7 (ix2 (0 : Fin 1) c)) * x3 (ix2 r (0 : Fin 1))

def pwB (r : Fin 128) (c : Fin 384) : EReal := gath x1 x5 r ⟨c.val, by omega⟩ * wgB x3 x4 x6 x7 r c

/-- Row r's message: columns below 128 the scalar part, then one block of 128 columns per direction. -/
def msgB (r : Fin 128) (col : Fin 512) : EReal :=
  if h : col.val < 128 then pwB x1 x3 x4 x5 x6 x7 r ⟨128 + col.val, by omega⟩
  else
    gath x1 x5 r ⟨384 + 128 * ((col.val - 128) / 128) + (col.val - 128) % 128, by omega⟩
        * pwB x1 x3 x4 x5 x6 x7 r ⟨(col.val - 128) % 128, by omega⟩
      + pwB x1 x3 x4 x5 x6 x7 r ⟨256 + (col.val - 128) % 128, by omega⟩
        * x2 (ix2 r ⟨(col.val - 128) / 128, by omega⟩)

theorem pay4_apply (hiota : ∀ n : Fin 10000, x8 (ix2 (0 : Fin 1) n) = BitVec.ofNat 32 n.val) (r : Fin 128) (c : Fin 768) :
    k1_pay4 (F := Ideal) x1 x8 x5 (ix2 r c) = gath x1 x5 r c := by
  show FloatOps.matmul dot_S128x10000_S10000x768_S128x768_1_0_0_1_n_n none (k1_pay3 (F := Ideal) x1 x8)
    (shapeCast S10000x768 x5 shapeCasts_S10000x768_S10000x768) (constant S128x768 .f32 0x00000000#32) (ix2 r c) = _
  refine (SageSpec.matmul_zero_at plain_gat none _ _ (ix2 r c)).trans ?_
  unfold SageSpec.rowDot gath
  refine Finset.sum_congr rfl fun n _ => ?_
  show k1_pay3 (F := Ideal) x1 x8 (ix2 r n) * shapeCast S10000x768 x5 shapeCasts_S10000x768_S10000x768 (ix2 n c) = _
  rw [hotMat_apply x1 x8 hiota r n, shapeCast_self]

theorem pay9_apply (r : Fin 128) (c : Fin 384) :
    k1_pay9 (F := Ideal) x4 x6 x7 (ix2 r c) = (∑ k : Fin 20, x4 (ix2 r k) * x6 (ix2 k c)) + x7 (ix2 (0 : Fin 1) c) := by
  unfold k1_pay9
  rw [addf_apply]
  refine congrArg₂ (· + ·) ?_ ?_
  · refine (SageSpec.matmul_zero_at plain_rad none _ _ (ix2 r c)).trans ?_
    rfl
  · rw [broadcastTo_1b_ab_apply, shapeCast_self]

/-- The gathered perceptron columns times the gate. -/
theorem pw_apply (hiota : ∀ n : Fin 10000, x8 (ix2 (0 : Fin 1) n) = BitVec.ofNat 32 n.val) (r : Fin 128) (c : Fin 384) :
    k1_pay10 (F := Ideal) (k1_pay5 x1 x8 x5) (k1_pay9 x4 x6 x7) x3 (ix2 r c) = pwB x1 x3 x4 x5 x6 x7 r c := by
  unfold k1_pay10 k1_pay5 pwB wgB
  rw [mulf_apply, mulf_apply, broadcastTo_a1_ab_apply, shapeCast_self, pay9_apply]
  refine congrArg (· * _) ?_
  refine (slice2_axis1_apply 0 _ _ r c (⟨c.val, by omega⟩ : Fin 768) (Nat.zero_add _).symm).trans ?_
  exact pay4_apply x1 x5 x8 hiota r _

theorem msgB_scalar (r : Fin 128) (col : Fin 512) (f : Fin 128) (hc : col.val = f.val) :
    msgB x1 x2 x3 x4 x5 x6 x7 r col = pwB x1 x3 x4 x5 x6 x7 r ⟨128 + f.val, by omega⟩ := by
  unfold msgB
  rw [dif_pos (by omega)]
  exact congrArg (pwB x1 x3 x4 x5 x6 x7 r) (Fin.ext (by show 128 + col.val = 128 + f.val; omega))

theorem msgB_vector (r : Fin 128) (col : Fin 512) (k : Fin 3) (f : Fin 128) (hc : col.val = 128 * (k.val + 1) + f.val) :
    msgB x1 x2 x3 x4 x5 x6 x7 r col
      = gath x1 x5 r ⟨384 + 128 * k.val + f.val, by omega⟩ * pwB x1 x3 x4 x5 x6 x7 r ⟨f.val, by omega⟩
        + pwB x1 x3 x4 x5 x6 x7 r ⟨256 + f.val, by omega⟩ * x2 (ix2 r k) := by
  have e1 : (col.val - 128) / 128 = k.val := by omega
  have e2 : (col.val - 128) % 128 = f.val := by omega
  unfold msgB
  rw [dif_neg (by omega)]
  simp only [e1, e2]

/-- Direction k's block of the vector message: the gathered component times the first block of the product, plus its last block times the direction's entry. -/
theorem vec_apply (hiota : ∀ n : Fin 10000, x8 (ix2 (0 : Fin 1) n) = BitVec.ofNat 32 n.val) (k : Fin 3) (hs : S128x768.Slices ![0, 384 + 128 * k.val] S128x128)
    (hd : S128x3.Slices ![0, k.val] S128x1) (r f : Fin 128) (col : Fin 512) (hc : col.val = 128 * (k.val + 1) + f.val) :
    addf (mulf (extractStridedSlice S128x128 ![0, 384 + 128 * k.val] (k1_pay4 (F := Ideal) x1 x8 x5) hs)
          (k1_pay11 (F := Ideal) (k1_pay5 x1 x8 x5) (k1_pay9 x4 x6 x7) x3))
        (mulf (k1_pay12 (F := Ideal) (k1_pay5 x1 x8 x5) (k1_pay9 x4 x6 x7) x3)
          (broadcastTo S128x128 (extractStridedSlice S128x1 ![0, k.val] x2 hd) broadcasts_S128x1_S128x128)) (ix2 r f)
      = msgB x1 x2 x3 x4 x5 x6 x7 r col := by
  rw [addf_apply, mulf_apply, mulf_apply, broadcastTo_a1_ab_apply, msgB_vector x1 x2 x3 x4 x5 x6 x7 r col k f hc,
    slice2_axis1_apply _ _ hs r f ⟨384 + 128 * k.val + f.val, by omega⟩ rfl, pay4_apply x1 x5 x8 hiota,
    slice2_axis1_apply _ _ hd r (0 : Fin 1) k rfl]
  unfold k1_pay11 k1_pay12
  refine congrArg₂ (· + ·) (congrArg (_ * ·) ?_) (congrArg (· * _) ?_)
  · refine (slice2_axis1_apply 0 _ _ r f (⟨f.val, by omega⟩ : Fin 384) (Nat.zero_add _).symm).trans ?_
    exact pw_apply x1 x3 x4 x5 x6 x7 x8 hiota r _
  · refine (slice2_axis1_apply 256 _ _ r f (⟨256 + f.val, by omega⟩ : Fin 384) rfl).trans ?_
    exact pw_apply x1 x3 x4 x5 x6 x7 x8 hiota r _

/-- The scatter of two side-by-side blocks of messages: node n's row gains the receivers' 0/1 weights times the blocks' entries. -/
theorem scatter_apply (hiota : ∀ n : Fin 10000, x8 (ix2 (0 : Fin 1) n) = BitVec.ofNat 32 n.val) (A B : FVec Ideal S128x128 .f32) (prev : Vec Ideal S1x10000x256 .f32) (colOf : Fin 256 → Fin 512)
    (hA : ∀ r f : Fin 128, A (ix2 r f) = msgB x1 x2 x3 x4 x5 x6 x7 r (colOf ⟨f.val, by omega⟩))
    (hB : ∀ r f : Fin 128, B (ix2 r f) = msgB x1 x2 x3 x4 x5 x6 x7 r (colOf ⟨128 + f.val, by omega⟩)) (n : Fin 10000) (q : Fin 256) :
    shapeCast S1x10000x256 (addf (shapeCast S10000x256 prev shapeCasts_S1x10000x256_S10000x256)
        (FloatOps.matmul dot_S128x10000_S128x256_S10000x256_0_0_1_1_n_n none (k1_pay3 (F := Ideal) x0 x8)
          (truncf .bf16 (concatenate S128x256 1 [⟨S128x128, A⟩, ⟨S128x128, B⟩] concatenates_S128x128_S128x128_S128x256_d1) bitsLt_bf16_f32)
          (constant S10000x256 .f32 0x00000000#32))) shapeCasts_S10000x256_S1x10000x256 (ix3 (0 : Fin 1) n q)
      = prev (ix3 (0 : Fin 1) n q) + ∑ r : Fin 128, hot (x0 (ix2 r (0 : Fin 1))) n * msgB x1 x2 x3 x4 x5 x6 x7 r (colOf q) := by
  refine (shapeCast_ab_1ab_apply _ _ (0 : Fin 1) n q).trans ?_
  refine (addf_apply _ _ _).trans ?_
  refine congrArg₂ (· + ·) (shapeCast_1ab_ab_apply _ _ n q) ?_
  refine (ColDotSpec.matmul_zero_colAt col_sca none _ _ (ix2 n q)).trans ?_
  unfold ColDotSpec.colDot
  refine Finset.sum_congr rfl fun r _ => ?_
  refine congrArg₂ (· * ·) (hotMat_apply x0 x8 hiota r n) ?_
  by_cases hq : q.val < 128
  · exact (concatenate_pair_apply_left (1 : Fin 2) A B concatenates_S128x128_S128x128_S128x256_d1 (ix2 r q) rfl (ix2 r ⟨q.val, hq⟩)
      (fun b => match b with | ⟨0, _⟩ => rfl | ⟨1, _⟩ => rfl)).trans (hA r ⟨q.val, hq⟩)
  · refine (concatenate_pair_apply_right (1 : Fin 2) A B concatenates_S128x128_S128x128_S128x256_d1 (ix2 r q) rfl rfl (ix2 r ⟨q.val - 128, by omega⟩)
      (fun b => match b with | ⟨0, _⟩ => fun _ => rfl | ⟨1, _⟩ => fun hb => absurd rfl hb)
      (by show q.val - 128 + 128 = q.val; omega)).trans ((hB r _).trans ?_)
    exact congrArg (fun z => msgB x1 x2 x3 x4 x5 x6 x7 r (colOf z)) (Fin.ext (by show 128 + (q.val - 128) = q.val; omega))

theorem pay13_apply (hiota : ∀ n : Fin 10000, x8 (ix2 (0 : Fin 1) n) = BitVec.ofNat 32 n.val)
    (prevLo : Vec Ideal S1x10000x256 .f32) (n : Fin 10000) (q : Fin 256) :
    k1_pay13 (F := Ideal) (k1_pay3 x0 x8) (k1_pay5 x1 x8 x5) (k1_pay6 x1 x8 x5) (k1_pay9 x4 x6 x7) x3 x2 prevLo (ix3 (0 : Fin 1) n q)
      = prevLo (ix3 (0 : Fin 1) n q)
        + ∑ r : Fin 128, hot (x0 (ix2 r (0 : Fin 1))) n * msgB x1 x2 x3 x4 x5 x6 x7 r ⟨q.val, by omega⟩ := by
  unfold k1_pay13
  refine scatter_apply x0 x1 x2 x3 x4 x5 x6 x7 x8 hiota _ _ prevLo (fun q => ⟨q.val, by omega⟩) (fun r f => ?_) (fun r f => ?_) n q
  · refine (slice2_axis1_apply 128 _ _ r f (⟨128 + f.val, by omega⟩ : Fin 384) rfl).trans ?_
    rw [pw_apply x1 x3 x4 x5 x6 x7 x8 hiota]
    exact (msgB_scalar x1 x2 x3 x4 x5 x6 x7 r _ f rfl).symm
  · exact vec_apply x1 x2 x3 x4 x5 x6 x7 x8 hiota 0 slices_S128x768_o0_384_S128x128 slices_S128x3_o0_0_S128x1 r f _ (by show 128 + f.val = 128 * (0 + 1) + f.val; omega)

theorem pay14_apply (hiota : ∀ n : Fin 10000, x8 (ix2 (0 : Fin 1) n) = BitVec.ofNat 32 n.val)
    (prevHi : Vec Ideal S1x10000x256 .f32) (n : Fin 10000) (q : Fin 256) :
    k1_pay14 (F := Ideal) (k1_pay3 x0 x8) (k1_pay5 x1 x8 x5) (k1_pay7 x1 x8 x5) (k1_pay8 x1 x8 x5) (k1_pay9 x4 x6 x7) x3 x2 prevHi (ix3 (0 : Fin 1) n q)
      = prevHi (ix3 (0 : Fin 1) n q)
        + ∑ r : Fin 128, hot (x0 (ix2 r (0 : Fin 1))) n * msgB x1 x2 x3 x4 x5 x6 x7 r ⟨256 + q.val, by omega⟩ := by
  unfold k1_pay14
  refine scatter_apply x0 x1 x2 x3 x4 x5 x6 x7 x8 hiota _ _ prevHi (fun q => ⟨256 + q.val, by omega⟩) (fun r f => ?_) (fun r f => ?_) n q
  · exact vec_apply x1 x2 x3 x4 x5 x6 x7 x8 hiota 1 slices_S128x768_o0_512_S128x128 slices_S128x3_o0_1_S128x1 r f _ (by show 256 + f.val = 128 * (1 + 1) + f.val; omega)
  · exact vec_apply x1 x2 x3 x4 x5 x6 x7 x8 hiota 2 slices_S128x768_o0_640_S128x128 slices_S128x3_o0_2_S128x1 r f _ (by show 256 + (128 + f.val) = 128 * (2 + 1) + f.val; omega)

theorem pay1_apply (i : S1x10000x512.Idx) : k1_pay1 (F := Ideal) i = 0 := by
  unfold k1_pay1
  show Ideal.ofBits .f32 0x00000000#32 = 0
  exact Ideal.ofBits_zero_f32

/-- A word that is node j's number leaves exactly the j-th term of the sum. -/
theorem gath_eq (r : Fin 128) (c : Fin 768) (j : Fin 10000) (hj : x1 (ix2 r (0 : Fin 1)) = BitVec.ofNat 32 j.val) :
    gath x1 x5 r c = x5 (ix2 j c) := by
  unfold gath
  rw [Finset.sum_eq_single j]
  · unfold hot; rw [if_pos hj, one_mul]
  · intro n _ hn
    unfold hot
    rw [if_neg, zero_mul]
    rw [hj]
    intro e
    apply hn
    have := congrArg BitVec.toNat e
    simp only [BitVec.toNat_ofNat] at this
    have h1 := j.isLt; have h2 := n.isLt
    exact Fin.ext (by omega)
  · intro h; exact absurd (Finset.mem_univ j) h

end Cert.EdgeBlock

end
-- ==== Proof.ValEdgeStep.lean ====
import proofs.«403595_j11347303596608_3_alg».proof.Proof.ValDefs
import proofs.«403595_j11347303596608_3_alg».proof.Proof.EdgeBlock
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame

namespace EdgeStep

abbrev RLo : Rect S1x10000x512 := Rect.unit (s := S1x10000x512) ![0, 0, 0] S1x10000x256.size inb_S1x10000x512_S1x10000x256_0_0_0
abbrev RHi : Rect S1x10000x512 := Rect.unit (s := S1x10000x512) ![0, 0, 256] S1x10000x256.size inb_S1x10000x512_S1x10000x256_0_0_256
abbrev RAll : Rect S1x10000x512 := Rect.unit (s := S1x10000x512) ![0, 0, 0] S1x10000x512.size inb_S1x10000x512_S1x10000x512_0_0_0

theorem hz2 : (![0, 0] : Fin 2 → Nat) = fun _ => 0 := funext fun a => by fin_cases a <;> rfl
theorem hz3 : (![0, 0, 0] : Fin 3 → Nat) = fun _ => 0 := funext fun a => by fin_cases a <;> rfl

theorem disjoint_lo_hi : Disjoint RLo.set RHi.set :=
  Rect.unit_disjoint (s := S1x10000x512) (off := ![0, 0, 0]) (size := S1x10000x256.size) (off' := ![0, 0, 256]) (size' := S1x10000x256.size)
    (2 : Fin 3) (Or.inl (by decide))

theorem readCov_reset_lo {F : FTy → Type} [FloatOps F] {κ : Kind} {sp : Space} (v : View sig κ sp S1x10000x512 .f32) (w : S1x10000x512.Idx → Elt F .f32) :
    v.readCov [(⟨RAll, w⟩ : View.Piece (Elt F) S1x10000x512 .f32)] RLo.toLoadRect = View.ld w RLo := by
  rw [View.readCov_eq_canon', View.canon_unit_zero hz3]

/-- The two halves of columns do not meet, so the high half still reads the whole-slab value. -/
theorem readCov_reset_hi {F : FTy → Type} [FloatOps F] {κ : Kind} {sp : Space} (v : View sig κ sp S1x10000x512 .f32) (wLo : S1x10000x256.Idx → Elt F .f32)
    (w : S1x10000x512.Idx → Elt F .f32) :
    v.readCov [(⟨RLo, wLo⟩ : View.Piece (Elt F) S1x10000x512 .f32), ⟨RAll, w⟩] RHi.toLoadRect = View.ld w RHi := by
  rw [View.readCov_cons_of_disjoint v (⟨RLo, wLo⟩ : View.Piece (Elt F) S1x10000x512 .f32) [⟨RAll, w⟩] RHi.toLoadRect disjoint_lo_hi,
    View.readCov_eq_canon', View.canon_unit_zero hz3]

theorem RLo_emb (n : Fin 10000) (q : Fin 256) :
    RLo.emb (ix3 (0 : Fin 1) n q) = ix3 (0 : Fin 1) n (⟨q.val, by omega⟩ : Fin 512) := by
  funext a; apply Fin.ext
  match a with
  | ⟨0, _⟩ => rfl
  | ⟨1, _⟩ => show 0 + 1 * n.val = n.val; omega
  | ⟨2, _⟩ => show 0 + 1 * q.val = q.val; omega

theorem RHi_emb (n : Fin 10000) (q : Fin 256) :
    RHi.emb (ix3 (0 : Fin 1) n q) = ix3 (0 : Fin 1) n (⟨256 + q.val, by omega⟩ : Fin 512) := by
  funext a; apply Fin.ext
  match a with
  | ⟨0, _⟩ => rfl
  | ⟨1, _⟩ => show 0 + 1 * n.val = n.val; omega
  | ⟨2, _⟩ => show 256 + 1 * q.val = 256 + q.val; omega

theorem not_mem_RHi (n : Fin 10000) (q : Fin 256) : ix3 (0 : Fin 1) n (⟨q.val, by omega⟩ : Fin 512) ∉ RHi.set := by
  rw [Rect.mem_set_unit]
  intro h
  have h2 : 256 ≤ q.val := (h (2 : Fin 3)).1
  omega

theorem canon_halves_lo {Val : EltTy → Type} [∀ e, Nonempty (Val e)] (wHi wLo : S1x10000x256.Idx → Val .f32) (L : List (View.Piece Val S1x10000x512 .f32)) (n : Fin 10000) (q : Fin 256) :
    View.canon ((⟨RHi, wHi⟩ : View.Piece Val S1x10000x512 .f32) :: ⟨RLo, wLo⟩ :: L) (ix3 (0 : Fin 1) n (⟨q.val, by omega⟩ : Fin 512))
      = wLo (ix3 (0 : Fin 1) n q) := by
  refine (View.canon_cons_of_not_mem (⟨RHi, wHi⟩ : View.Piece Val S1x10000x512 .f32) (⟨RLo, wLo⟩ :: L) (not_mem_RHi n q)).trans ?_
  refine (congrArg (View.canon ((⟨RLo, wLo⟩ : View.Piece Val S1x10000x512 .f32) :: L)) (RLo_emb n q)).symm.trans ?_
  exact View.canon_cons_emb RLo wLo L (ix3 (0 : Fin 1) n q)

theorem canon_halves_hi {Val : EltTy → Type} [∀ e, Nonempty (Val e)] (wHi : S1x10000x256.Idx → Val .f32) (L : List (View.Piece Val S1x10000x512 .f32)) (n : Fin 10000) (q : Fin 256) :
    View.canon ((⟨RHi, wHi⟩ : View.Piece Val S1x10000x512 .f32) :: L) (ix3 (0 : Fin 1) n (⟨256 + q.val, by omega⟩ : Fin 512))
      = wHi (ix3 (0 : Fin 1) n q) := by
  refine (congrArg (View.canon ((⟨RHi, wHi⟩ : View.Piece Val S1x10000x512 .f32) :: L)) (RHi_emb n q)).symm.trans ?_
  exact View.canon_cons_emb RHi wHi L (ix3 (0 : Fin 1) n q)

section Body

variable {c : Dev nD} {i : grid1.Coords} {arg2 : Memref sig .tc .vmem S128x1 .i32} {harg2 : arg2.IsWhole} {arg3 : Memref sig .tc .vmem S128x1 .i32} {harg3 : arg3.IsWhole} {arg4 : Memref sig .tc .vmem S128x3 .f32} {harg4 : arg4.IsWhole} {arg5 : Memref sig .tc .vmem S128x1 .f32} {harg5 : arg5.IsWhole} {arg6 : Memref sig .tc .vmem S128x20 .f32} {harg6 : arg6.IsWhole} {arg7 : Memref sig .tc .vmem S10000x768 .bf16} {harg7 : arg7.IsWhole} {arg8 : Memref sig .tc .vmem S20x384 .f32} {harg8 : arg8.IsWhole} {arg9 : Memref sig .tc .vmem S1x384 .f32} {harg9 : arg9.IsWhole} {arg10 : Memref sig .tc .vmem S1x10000 .i32} {harg10 : arg10.IsWhole} {arg11 : Memref sig .tc .vmem S1x10000x512 .f32} {harg11 : arg11.IsWhole}
  (x0 x1 : Vec Ideal S128x1 .i32) (x2 : Vec Ideal S128x3 .f32) (x3 : Vec Ideal S128x1 .f32) (x4 : Vec Ideal S128x20 .f32)
  (x5 : Vec Ideal S10000x768 .bf16) (x6 : Vec Ideal S20x384 .f32) (x7 : Vec Ideal S1x384 .f32) (x8 : Vec Ideal S1x10000 .i32)

abbrev share (n : Fin 10000) (col : Fin 512) : EReal :=
  ∑ r : Fin 128, Cert.EdgeBlock.hot (x0 (ix2 r (0 : Fin 1))) n * Cert.EdgeBlock.msgB x1 x2 x3 x4 x5 x6 x7 r col

variable (hiota : ∀ n : Fin 10000, x8 (ix2 (0 : Fin 1) n) = BitVec.ofNat 32 n.val) (n : Fin 10000) (col : Fin 512)
include hiota

/-- Two pieces, the halves of columns, each computed over that half of one slab value P: the entry reads as P there plus the node's share. -/
theorem halves_apply (P : Vec Ideal S1x10000x512 .f32) (pLo pHi : Vec Ideal S1x10000x256 .f32) (hLo : pLo = View.ld P RLo) (hHi : pHi = View.ld P RHi)
    (L : List (View.Piece (Elt Ideal) S1x10000x512 .f32)) :
    View.canon ((⟨RHi, k1_pay14 (F := Ideal) (k1_pay3 x0 x8) (k1_pay5 x1 x8 x5) (k1_pay7 x1 x8 x5) (k1_pay8 x1 x8 x5) (k1_pay9 x4 x6 x7) x3 x2 pHi⟩ : View.Piece (Elt Ideal) S1x10000x512 .f32)
        :: ⟨RLo, k1_pay13 (F := Ideal) (k1_pay3 x0 x8) (k1_pay5 x1 x8 x5) (k1_pay6 x1 x8 x5) (k1_pay9 x4 x6 x7) x3 x2 pLo⟩ :: L) (ix3 (0 : Fin 1) n col)
      = P (ix3 (0 : Fin 1) n col) + share x0 x1 x2 x3 x4 x5 x6 x7 n col := by
  subst hLo hHi
  by_cases h : col.val < 256
  · obtain ⟨q, rfl⟩ : ∃ q : Fin 256, col = ⟨q.val, Nat.lt_trans q.isLt (by decide)⟩ := ⟨⟨col.val, h⟩, rfl⟩
    refine (canon_halves_lo _ _ L n q).trans ((Cert.EdgeBlock.pay13_apply x0 x1 x2 x3 x4 x5 x6 x7 x8 hiota _ n q).trans ?_)
    exact congrArg (P · + _) (RLo_emb n q)
  · obtain ⟨q, rfl⟩ : ∃ q : Fin 256, col = ⟨256 + q.val, Nat.add_lt_add_left q.isLt 256⟩ :=
      ⟨⟨col.val - 256, by omega⟩, Fin.ext (by show col.val = 256 + (col.val - 256); omega)⟩
    refine (canon_halves_hi _ _ n q).trans ((Cert.EdgeBlock.pay14_apply x0 x1 x2 x3 x4 x5 x6 x7 x8 hiota _ n q).trans ?_)
    exact congrArg (P · + _) (RHi_emb n q)

variable {x0 x1 x2 x3 x4 x5 x6 x7 x8}

/-- A later point: what the slab held, plus the node's share. -/
theorem out1_B_9_apply {hc0 : ¬cond1_0 i} (xo9 : Vec Ideal S1x10000x512 .f32) :
    out1_B_9 (F := Ideal) c i arg2 harg2 arg3 harg3 arg4 harg4 arg5 harg5 arg6 harg6 arg7 harg7 arg8 harg8 arg9 harg9 arg10 harg10 arg11 harg11 hc0 x0 x1 x2 x3 x4 x5 x6 x7 x8 xo9 (ix3 (0 : Fin 1) n col)
      = xo9 (ix3 (0 : Fin 1) n col) + share x0 x1 x2 x3 x4 x5 x6 x7 n col := by
  unfold out1_B_9
  rw [View.read_writes_junk_eq_canon]
  unfold kernelRun1_B; dsimp only; sl_unfold_words
  simp only [View.readAt_eq_ld, harg2.read_unread, harg3.read_unread, harg4.read_unread, harg5.read_unread, harg6.read_unread,
    harg7.read_unread, harg8.read_unread, harg9.read_unread, harg10.read_unread, harg11.read_unread,
    View.ld_unit_zero (S := S128x1) hz2, View.ld_unit_zero (S := S128x3) hz2, View.ld_unit_zero (S := S128x20) hz2,
    View.ld_unit_zero (S := S10000x768) hz2, View.ld_unit_zero (S := S20x384) hz2, View.ld_unit_zero (S := S1x384) hz2,
    View.ld_unit_zero (S := S1x10000) hz2]
  exact halves_apply x0 x1 x2 x3 x4 x5 x6 x7 x8 hiota n col xo9 _ _ rfl rfl []

/-- A reset point: the slab is cleared first, so both halves are computed over zero. -/
theorem out1_A_9_apply {hc0 : cond1_0 i} :
    out1_A_9 (F := Ideal) c i arg2 harg2 arg3 harg3 arg4 harg4 arg5 harg5 arg6 harg6 arg7 harg7 arg8 harg8 arg9 harg9 arg10 harg10 arg11 harg11 hc0 x0 x1 x2 x3 x4 x5 x6 x7 x8 (ix3 (0 : Fin 1) n col)
      = 0 + share x0 x1 x2 x3 x4 x5 x6 x7 n col := by
  unfold out1_A_9
  rw [View.read_writes_junk_eq_canon]
  unfold kernelRun1_A; dsimp only; sl_unfold_words
  simp only [View.readAt_eq_ld, harg2.read_unread, harg3.read_unread, harg4.read_unread, harg5.read_unread, harg6.read_unread,
    harg7.read_unread, harg8.read_unread, harg9.read_unread, harg10.read_unread, harg11.read_unread,
    View.ld_unit_zero (S := S128x1) hz2, View.ld_unit_zero (S := S128x3) hz2, View.ld_unit_zero (S := S128x20) hz2,
    View.ld_unit_zero (S := S10000x768) hz2, View.ld_unit_zero (S := S20x384) hz2, View.ld_unit_zero (S := S1x384) hz2,
    View.ld_unit_zero (S := S1x10000) hz2]
  refine (halves_apply x0 x1 x2 x3 x4 x5 x6 x7 x8 hiota n col (k1_pay1 (F := Ideal)) _ _ (readCov_reset_lo _ _) (readCov_reset_hi _ _ _) _).trans ?_
  rw [Cert.EdgeBlock.pay1_apply]

end Body

theorem iblk1_8_apply (V : (c : Dev nD) → (b : Ref sig .tc) → Buf (Elt Ideal) ((c : Thread nD τ).loc b)) (c : Dev nD) (t : Fin cfg1.N) (n : Fin 10000) :
    iblk1 (F := Ideal) V c 8 t (ix2 (0 : Fin 1) n) = (V c main_v18 : S1x10000.Idx → BitVec 32) (ix2 (0 : Fin 1) n) := by
  show (V c main_v18 : S1x10000.Idx → BitVec 32) (((cfg1.win 8).blk t).view.emb (ix2 (0 : Fin 1) n)) = _
  refine congrArg _ ?_
  funext a; apply Fin.ext
  match a with
  | ⟨0, _⟩ => rfl
  | ⟨1, _⟩ => show 0 * 10000 + 1 * n.val = n.val; omega

end EdgeStep

variable (m : (ℓ : Loc nD τ sig) → Buf (Elt Ideal) ℓ) (ρ : Dev nD → PrngReg)

abbrev msgAt (c : Dev nD) (t : Fin cfg1.N) (r : Fin 128) (col : Fin 512) : EReal :=
  Cert.EdgeBlock.msgB (iblk1 (F := Ideal) (V3 m ρ) c 1 t) (iblk1 (F := Ideal) (V3 m ρ) c 2 t) (iblk1 (F := Ideal) (V3 m ρ) c 3 t) (iblk1 (F := Ideal) (V3 m ρ) c 4 t) (iblk1 (F := Ideal) (V3 m ρ) c 5 t) (iblk1 (F := Ideal) (V3 m ρ) c 6 t) (iblk1 (F := Ideal) (V3 m ρ) c 7 t) r col

/-- After point t the slab holds nothing (at the first point of a row) or what the point before left, plus the node's share of the block's messages. -/
theorem outsAt1_step (c : Dev nD) (t : Fin cfg1.N)
    (hiota : ∀ n : Fin 10000, (V3 (F := Ideal) m ρ c main_v18 : S1x10000.Idx → BitVec 32) (ix2 (0 : Fin 1) n) = BitVec.ofNat 32 n.val)
    (n : Fin 10000) (col : Fin 512) :
    outsAt1 (F := Ideal) (V3 m ρ) c t.val t.isLt (ix3 (0 : Fin 1) n col)
      = (if t.val % 1250 = 0 then 0
          else outsAt1 (F := Ideal) (V3 m ρ) c (t.val - 1) (Nat.lt_of_le_of_lt (Nat.sub_le _ _) t.isLt) (ix3 (0 : Fin 1) n col))
        + ∑ r : Fin 128, Cert.EdgeBlock.hot ((iblk1 (F := Ideal) (V3 m ρ) c 0 t) (ix2 r (0 : Fin 1))) n * msgAt m ρ c t r col := by
  have hio : ∀ n : Fin 10000, (iblk1 (F := Ideal) (V3 m ρ) c 8 t) (ix2 (0 : Fin 1) n) = BitVec.ofNat 32 n.val :=
    fun n => (EdgeStep.iblk1_8_apply (V3 m ρ) c t n).trans (hiota n)
  by_cases h0 : t.val % 1250 = 0
  · rw [if_pos h0, outsAt1_A (V3 m ρ) c t h0]
    exact EdgeStep.out1_A_9_apply hio n col
  · rw [if_neg h0, outsAt1_B (V3 m ρ) c t h0]
    exact EdgeStep.out1_B_9_apply hio n col _

end Cert.KernelIdeal.Val

end
-- ==== Proof.ValEdge.lean ====
import proofs.«403595_j11347303596608_3_alg».proof.Proof.ValEntry
import proofs.«403595_j11347303596608_3_alg».proof.Proof.ValEdgeStep
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame

variable (m : (ℓ : Loc nD τ sig) → Buf (Elt Ideal) ℓ) (ρ : Dev nD → PrngReg)

namespace EdgeSum

theorem toInt_ofNat_node (n : ℕ) (hn : n < 10000) : (BitVec.ofNat 32 n).toInt = (n : ℤ) := by
  rw [BitVec.toInt_eq_toNat_cond, BitVec.toNat_ofNat]
  have : n % 2 ^ 32 = n := Nat.mod_eq_of_lt (by omega)
  rw [this]
  split <;> omega

theorem hot_eq (w : BitVec 32) (n : Fin 10000) :
    Cert.EdgeBlock.hot w n = if w.toInt = (n.val : ℤ) then 1 else 0 := by
  unfold Cert.EdgeBlock.hot
  refine if_congr ?_ rfl rfl
  constructor
  · rintro rfl; exact toInt_ofNat_node n.val n.isLt
  · intro h; exact BitVec.eq_of_toInt_eq (h.trans (toInt_ofNat_node n.val n.isLt).symm)

theorem word_eq_of_inRange (w : BitVec 32) (h0 : 0 ≤ w.toInt) (h1 : w.toInt < 10000) :
    w = BitVec.ofNat 32 (min w.toInt.toNat 9999) := by
  apply BitVec.eq_of_toInt_eq
  rw [toInt_ofNat_node _ (by omega)]
  omega

section Msg

variable (a : Cert.Spec.Inp)
variable (x1 : Vec Ideal S128x1 .i32) (x2 : Vec Ideal S128x3 .f32) (x3 : Vec Ideal S128x1 .f32) (x4 : Vec Ideal S128x20 .f32)
  (x5 : Vec Ideal S10000x768 .bf16) (x6 : Vec Ideal S20x384 .f32) (x7 : Vec Ideal S1x384 .f32)
variable (r : Fin 128) (e : Fin 320000)
  (h1 : x1 (ix2 r (0 : Fin 1)) = BitVec.ofNat 32 (Cert.Spec.jOf a e).val)
  (h2 : ∀ k : Fin 3, x2 (ix2 r k) = a.rdir (ix2 e k))
  (h3 : x3 (ix2 r (0 : Fin 1)) = a.dist (ix1 e))
  (h4 : ∀ k : Fin 20, x4 (ix2 r k) = a.rbf (ix2 e k))
  (h5 : ∀ (n : Fin 10000) (q : Fin 768), x5 (ix2 n q) = Cert.Spec.tableS a n q)
  (h6 : ∀ (k : Fin 20) (q : Fin 384), x6 (ix2 k q) = a.Wr (ix2 k q))
  (h7 : ∀ q : Fin 384, x7 (ix2 (0 : Fin 1) q) = a.br (ix1 q))

include h1 h5 in
theorem gath_vf (f : Fin 128) (k : Fin 3) (q : Fin 768) (hq : q.val = 384 + 128 * k.val + f.val) :
    Cert.EdgeBlock.gath x1 x5 r q = a.vf (ix3 (Cert.Spec.jOf a e) f k) := by
  rw [Cert.EdgeBlock.gath_eq x1 x5 r q (Cert.Spec.jOf a e) h1, h5]
  unfold Cert.Spec.tableS
  rw [dif_neg (by omega)]
  have hf : (⟨(q.val - 384) % 128, Nat.mod_lt _ (by norm_num)⟩ : Fin 128) = f := Fin.ext (by have := f.isLt; show (q.val - 384) % 128 = f.val; omega)
  have hk : (⟨(q.val - 384) / 128, by have := q.isLt; omega⟩ : Fin 3) = k := Fin.ext (by have := f.isLt; show (q.val - 384) / 128 = k.val; omega)
  rw [hf, hk]

include h1 h3 h4 h5 h6 h7 in
theorem pwB_eq (q : Fin 384) : Cert.EdgeBlock.pwB x1 x3 x4 x5 x6 x7 r q = Cert.Spec.pw a e q := by
  unfold Cert.EdgeBlock.pwB Cert.Spec.pw Cert.EdgeBlock.wgB Cert.Spec.wg
  rw [Cert.EdgeBlock.gath_eq x1 x5 r _ (Cert.Spec.jOf a e) h1, h5, h3, h7]
  unfold Cert.Spec.tableS
  rw [dif_pos q.isLt]
  simp only [h4, h6]

include h1 h2 h3 h4 h5 h6 h7 in
theorem msgB_eq_msg (col : Fin 512) : Cert.EdgeBlock.msgB x1 x2 x3 x4 x5 x6 x7 r col = Cert.Spec.msg a e col := by
  unfold Cert.EdgeBlock.msgB Cert.Spec.msg
  by_cases hc : col.val < 128
  · rw [dif_pos hc, dif_pos hc]
    unfold Cert.Spec.mS
    exact pwB_eq a x1 x3 x4 x5 x6 x7 r e h1 h3 h4 h5 h6 h7 _
  · rw [dif_neg hc, dif_neg hc]
    unfold Cert.Spec.mV
    rw [pwB_eq a x1 x3 x4 x5 x6 x7 r e h1 h3 h4 h5 h6 h7, pwB_eq a x1 x3 x4 x5 x6 x7 r e h1 h3 h4 h5 h6 h7, h2,
      gath_vf a x1 x5 r e h1 h5 ⟨(col.val - 128) % 128, Nat.mod_lt _ (by norm_num)⟩ ⟨(col.val - 128) / 128, by have := col.isLt; omega⟩ _ rfl]

end Msg

def edgeOf (k : Fin 2) (i : Fin 1250) (r : Fin 128) : Fin 320000 :=
  ⟨160000 * k.val + 128 * i.val + r.val, by have := k.isLt; have := i.isLt; have := r.isLt; omega⟩

theorem sum_core_edges (k : Fin 2) (g : Fin 320000 → EReal) :
    ∑ e ∈ Finset.univ.filter (fun e : Fin 320000 => e.val / 160000 = k.val), g e
      = ∑ i : Fin 1250, ∑ r : Fin 128, g (edgeOf k i r) := by
  rw [← Finset.sum_product']
  refine Finset.sum_nbij' (fun e => (⟨(e.val % 160000) / 128, by omega⟩, ⟨e.val % 128, by omega⟩)) (fun p => edgeOf k p.1 p.2) ?_ ?_ ?_ ?_ ?_
  · intro e _; exact Finset.mem_product.mpr ⟨Finset.mem_univ _, Finset.mem_univ _⟩
  · intro p _
    rw [Finset.mem_filter]
    refine ⟨Finset.mem_univ _, ?_⟩
    have := k.isLt; have := p.1.isLt; have := p.2.isLt
    show (160000 * k.val + 128 * p.1.val + p.2.val) / 160000 = k.val
    omega
  · intro e he
    rw [Finset.mem_filter] at he
    apply Fin.ext
    have := e.isLt
    show 160000 * k.val + 128 * ((e.val % 160000) / 128) + e.val % 128 = e.val
    omega
  · intro p _
    have := k.isLt; have := p.1.isLt; have := p.2.isLt
    refine Prod.ext (Fin.ext ?_) (Fin.ext ?_)
    · show ((160000 * k.val + 128 * p.1.val + p.2.val) % 160000) / 128 = p.1.val
      omega
    · show (160000 * k.val + 128 * p.1.val + p.2.val) % 128 = p.2.val
      omega
  · intro e he
    rw [Finset.mem_filter] at he
    congr 1
    apply Fin.ext
    have := e.isLt
    show e.val = 160000 * k.val + 128 * ((e.val % 160000) / 128) + e.val % 128
    omega

theorem recv_core_sum (a : Cert.Spec.Inp) (k : Fin 2) (n : Fin 10000) (col : Fin 512) :
    ∑ e ∈ (Cert.Spec.recv a n).filter (fun e : Fin 320000 => e.val / 160000 = k.val), Cert.Spec.msg a e col
      = ∑ i : Fin 1250, ∑ r : Fin 128,
          Cert.EdgeBlock.hot (a.idxI (ix1 (edgeOf k i r))) n * Cert.Spec.msg a (edgeOf k i r) col := by
  unfold Cert.Spec.recv
  rw [Finset.filter_filter, Finset.filter_congr (q := fun e : Fin 320000 => e.val / 160000 = k.val ∧ (a.idxI (ix1 e)).toInt = (n.val : ℤ)) (fun e _ => and_comm),
    ← Finset.filter_filter, Finset.sum_filter, sum_core_edges]
  refine Finset.sum_congr rfl fun i _ => Finset.sum_congr rfl fun r _ => ?_
  rw [hot_eq]
  split
  · rw [one_mul]
  · rw [zero_mul]

theorem N1 : cfg1.N = 2500 := N_1

theorem outsAt1_congr (c : Dev nD) (n n' : ℕ) (h : n < cfg1.N) (h' : n' < cfg1.N) (e : n = n') :
    outsAt1 (F := Ideal) (V3 m ρ) c n h = outsAt1 (F := Ideal) (V3 m ρ) c n' h' := by
  subst e; rfl

def slabEnd (c : Dev nD) (k : Fin 2) : Vec Ideal S1x10000x512 .f32 :=
  outsAt1 (F := Ideal) (V3 m ρ) c (1250 * k.val + 1249) (by rw [N1]; have := k.isLt; omega)

def slabs (c : Dev nD) : S2x10000x512.Idx → EReal := fun i => slabEnd m ρ c (i 0) (ix3 (0 : Fin 1) (i 1) (i 2))

theorem slabs_apply (c : Dev nD) (i : S2x10000x512.Idx) (k : Fin 2) (n : Fin 10000) (col : Fin 512)
    (h0 : (i 0).val = k.val) (h1 : (i 1).val = n.val) (h2 : (i 2).val = col.val) :
    slabs m ρ c i = slabEnd m ρ c k (ix3 (0 : Fin 1) n col) := by
  obtain rfl : i 0 = k := Fin.ext h0
  obtain rfl : i 1 = n := Fin.ext h1
  obtain rfl : i 2 = col := Fin.ext h2
  rfl

theorem idx9 : ∀ t : Fin cfg1.N, win1_9.index t (0 : Fin 3) = t.val / 1250 ∧ win1_9.index t (1 : Fin 3) = 0 ∧ win1_9.index t (2 : Fin 3) = 0 :=
  (by decide +kernel : ∀ t : Fin grid1.N, _)

theorem flushed9_at (c : Dev nD) (t : Fin cfg1.N) (ht : t.val % 1250 = 1249) (j : S1x10000x512.Idx) :
    outsAt1 (F := Ideal) (V3 m ρ) c t.val t.isLt j = slabs m ρ c (((cfg1.win 9).blk t).view.emb j) := by
  have hN : t.val < 2500 := lt_of_lt_of_eq t.isLt N1
  obtain ⟨e0, e1, e2⟩ := idx9 t
  have hj0 : (j 0).val < 1 := (j 0).isLt
  rw [slabs_apply m ρ c _ ⟨t.val / 1250, by omega⟩ (j 1) (j 2)
    (by show win1_9.index t (0 : Fin 3) * 1 + 1 * (j 0).val = t.val / 1250; omega)
    (by show win1_9.index t (1 : Fin 3) * 10000 + 1 * (j 1).val = (j 1).val; omega)
    (by show win1_9.index t (2 : Fin 3) * 512 + 1 * (j 2).val = (j 2).val; omega)]
  unfold slabEnd
  rw [outsAt1_congr m ρ c (1250 * (t.val / 1250) + 1249) t.val _ t.isLt (by omega)]
  congr 1
  funext a
  match a with
  | ⟨0, _⟩ => exact Fin.ext (by show (j 0).val = 0; omega)
  | ⟨1, _⟩ => rfl
  | ⟨2, _⟩ => rfl

theorem flushed9_eq (c : Dev nD) (t : Fin cfg1.N) (hf : (cfg1.win 9).flush t = true) :
    (dat1 (F := Ideal) (V3 m ρ) c).flushed 9 t = ((cfg1.win 9).blk t).view.read (Elt Ideal) (slabs m ρ c) := by
  show (cfg1.win 9).cut (grid1.coords t) ((dat1 (F := Ideal) (V3 m ρ) c).after 9 t) = _
  rw [after1_9]
  funext j
  exact flushed9_at m ρ c t ((flush1_9 t).mp hf) j

theorem cover9 (i : S2x10000x512.Idx) : ∃ t : Fin cfg1.N, (cfg1.win 9).flush t = true ∧ i ∈ ((cfg1.win 9).blk t).view.set := by
  have h0 : (i 0).val < 2 := (i 0).isLt
  have h1 : (i 1).val < 10000 := (i 1).isLt
  have h2 : (i 2).val < 512 := (i 2).isLt
  let t : Fin cfg1.N := ⟨1250 * (i 0).val + 1249, by rw [N1]; omega⟩
  have htv : t.val = 1250 * (i 0).val + 1249 := rfl
  obtain ⟨e0, e1, e2⟩ := idx9 t
  refine ⟨t, (flush1_9 t).mpr (by rw [htv]; omega), ?_⟩
  show i ∈ ((View.whole main_v19).slice (win1_9.rect t)).set
  rw [View.set_slice_whole, Rect.mem_set_unit]
  intro a
  match a with
  | ⟨0, _⟩ => show win1_9.index t (0 : Fin 3) * 1 ≤ (i 0).val ∧ (i 0).val < win1_9.index t (0 : Fin 3) * 1 + 1; omega
  | ⟨1, _⟩ => show win1_9.index t (1 : Fin 3) * 10000 ≤ (i 1).val ∧ (i 1).val < win1_9.index t (1 : Fin 3) * 10000 + 10000; omega
  | ⟨2, _⟩ => show win1_9.index t (2 : Fin 3) * 512 ≤ (i 2).val ∧ (i 2).val < win1_9.index t (2 : Fin 3) * 512 + 512; omega

theorem accArr_eq_slabs (c : Dev nD) : accArr m ρ c = slabs m ρ c :=
  (W4_arr m ρ c 9).trans
    ((dat1 (F := Ideal) (V3 m ρ) c).arrAt_eq_of_cover 9 (slabs m ρ c) (flushed9_eq m ρ c) cover9)

theorem idx_edge : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

theorem idx_whole : ∀ t : Fin cfg1.N,
    win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

theorem ix2_eq {a b : ℕ} (j : (⟨2, ![a, b]⟩ : Shape).Idx) (p : Fin a) (q : Fin b) (h0 : (j 0).val = p.val) (h1 : (j 1).val = q.val) :
    j = ix2 p q :=
  (eq_ix2 j).trans (congrArg₂ ix2 (Fin.ext h0) (Fin.ext h1))

section Blocks

variable (c : Dev nD) (t : Fin cfg1.N)

section Edge

variable (r : Fin 128) (e : Fin 320000) (he : e.val = 128 * t.val + r.val)
include he

theorem blk0_apply :
    (iblk1 (F := Ideal) (V3 m ρ) c 0 t) (ix2 r (0 : Fin 1)) = (inp m c).idxI (ix1 e) := by
  have hh := idx_edge t
  show (V3 (F := Ideal) m ρ c main_v14 : S320000x1.Idx → BitVec 32) (((cfg1.win 0).blk t).view.emb (ix2 r (0 : Fin 1))) = _
  refine (congrArg _ (ix2_eq _ e (0 : Fin 1) ?_ ?_)).trans (V3_idxI m ρ c e)
  · show win1_0.index t (0 : Fin 2) * 128 + 1 * r.val = e.val; omega
  · show win1_0.index t (1 : Fin 2) * 1 + 1 * 0 = 0; omega

theorem blk1_apply :
    (iblk1 (F := Ideal) (V3 m ρ) c 1 t) (ix2 r (0 : Fin 1)) = (inp m c).idxJ (ix1 e) := by
  have hh := idx_edge t
  show (V3 (F := Ideal) m ρ c main_v15 : S320000x1.Idx → BitVec 32) (((cfg1.win 1).blk t).view.emb (ix2 r (0 : Fin 1))) = _
  refine (congrArg _ (ix2_eq _ e (0 : Fin 1) ?_ ?_)).trans (V3_idxJ m ρ c e)
  · show win1_1.index t (0 : Fin 2) * 128 + 1 * r.val = e.val; omega
  · show win1_1.index t (1 : Fin 2) * 1 + 1 * 0 = 0; omega

theorem blk2_apply (k : Fin 3) :
    (iblk1 (F := Ideal) (V3 m ρ) c 2 t) (ix2 r k) = (inp m c).rdir (ix2 e k) := by
  have hh := idx_edge t
  show (V3 (F := Ideal) m ρ c main_arg2 : S320000x3.Idx → EReal) (((cfg1.win 2).blk t).view.emb (ix2 r k)) = _
  refine (congrArg _ (ix2_eq _ e k ?_ ?_)).trans (congrFun (V3_rdir m ρ c) (ix2 e k))
  · show win1_2.index t (0 : Fin 2) * 128 + 1 * r.val = e.val; omega
  · show win1_2.index t (1 : Fin 2) * 3 + 1 * k.val = k.val; omega

theorem blk3_apply :
    (iblk1 (F := Ideal) (V3 m ρ) c 3 t) (ix2 r (0 : Fin 1)) = (inp m c).dist (ix1 e) := by
  have hh := idx_edge t
  show (V3 (F := Ideal) m ρ c main_v16 : S320000x1.Idx → EReal) (((cfg1.win 3).blk t).view.emb (ix2 r (0 : Fin 1))) = _
  refine (congrArg _ (ix2_eq _ e (0 : Fin 1) ?_ ?_)).trans (V3_dist m ρ c e)
  · show win1_3.index t (0 : Fin 2) * 128 + 1 * r.val = e.val; omega
  · show win1_3.index t (1 : Fin 2) * 1 + 1 * 0 = 0; omega

theorem blk4_apply (k : Fin 20) :
    (iblk1 (F := Ideal) (V3 m ρ) c 4 t) (ix2 r k) = (inp m c).rbf (ix2 e k) := by
  have hh := idx_edge t
  show (V3 (F := Ideal) m ρ c main_arg4 : S320000x20.Idx → EReal) (((cfg1.win 4).blk t).view.emb (ix2 r k)) = _
  refine (congrArg _ (ix2_eq _ e k ?_ ?_)).trans (congrFun (V3_rbf m ρ c) (ix2 e k))
  · show win1_4.index t (0 : Fin 2) * 128 + 1 * r.val = e.val; omega
  · show win1_4.index t (1 : Fin 2) * 20 + 1 * k.val = k.val; omega

end Edge

theorem blk5_apply (n : Fin 10000) (q : Fin 768) :
    (iblk1 (F := Ideal) (V3 m ρ) c 5 t) (ix2 n q) = Cert.Spec.tableS (inp m c) n q := by
  have hh := idx_whole t
  show (V3 (F := Ideal) m ρ c main_v13 : S10000x768.Idx → EReal) (((cfg1.win 5).blk t).view.emb (ix2 n q)) = _
  refine (congrArg _ (ix2_eq _ n q ?_ ?_)).trans (V3_table m ρ c n q)
  · show win1_5.index t (0 : Fin 2) * 10000 + 1 * n.val = n.val; omega
  · show win1_5.index t (1 : Fin 2) * 768 + 1 * q.val = q.val; omega

theorem blk6_apply (k : Fin 20) (q : Fin 384) :
    (iblk1 (F := Ideal) (V3 m ρ) c 6 t) (ix2 k q) = (inp m c).Wr (ix2 k q) := by
  have hh := idx_whole t
  show (V3 (F := Ideal) m ρ c main_arg11 : S20x384.Idx → EReal) (((cfg1.win 6).blk t).view.emb (ix2 k q)) = _
  refine (congrArg _ (ix2_eq _ k q ?_ ?_)).trans (congrFun (V3_Wr m ρ c) (ix2 k q))
  · show win1_6.index t (0 : Fin 2) * 20 + 1 * k.val = k.val; omega
  · show win1_6.index t (1 : Fin 2) * 384 + 1 * q.val = q.val; omega

theorem blk7_apply (q : Fin 384) :
    (iblk1 (F := Ideal) (V3 m ρ) c 7 t) (ix2 (0 : Fin 1) q) = (inp m c).br (ix1 q) := by
  have hh := idx_whole t
  show (V3 (F := Ideal) m ρ c main_v2 : S1x384.Idx → EReal) (((cfg1.win 7).blk t).view.emb (ix2 (0 : Fin 1) q)) = _
  refine (congrArg _ (ix2_eq _ (0 : Fin 1) q ?_ ?_)).trans (V3_br m ρ c q)
  · show win1_7.index t (0 : Fin 2) * 1 + 1 * 0 = 0; omega
  · show win1_7.index t (1 : Fin 2) * 384 + 1 * q.val = q.val; omega

end Blocks

section Row

variable (c : Dev nD) (n : Fin 10000) (col : Fin 512)

def addend (t : Fin cfg1.N) : EReal :=
  ∑ r : Fin 128, Cert.EdgeBlock.hot ((iblk1 (F := Ideal) (V3 m ρ) c 0 t) (ix2 r (0 : Fin 1))) n * msgAt m ρ c t r col

def slabAt (t : ℕ) : EReal := if h : t < cfg1.N then outsAt1 (F := Ideal) (V3 m ρ) c t h (ix3 (0 : Fin 1) n col) else 0

def addAt (t : ℕ) : EReal := if h : t < cfg1.N then addend m ρ c n col ⟨t, h⟩ else 0

theorem slabAt_step (t : ℕ) (ht : t < cfg1.N) :
    slabAt m ρ c n col t = (if t % 1250 = 0 then 0 else slabAt m ρ c n col (t - 1)) + addAt m ρ c n col t := by
  have h1 : t - 1 < cfg1.N := Nat.lt_of_le_of_lt (Nat.sub_le _ _) ht
  unfold slabAt addAt
  rw [dif_pos ht, dif_pos ht, dif_pos h1]
  exact outsAt1_step m ρ c ⟨t, ht⟩ (V3_iota m ρ c) n col

theorem slabAt_row (k : ℕ) (hk : k < 2) : ∀ i : ℕ, i < 1250 →
    slabAt m ρ c n col (1250 * k + i) = ∑ s ∈ Finset.range (i + 1), addAt m ρ c n col (1250 * k + s)
  | 0, _ => by
    rw [slabAt_step m ρ c n col _ (by rw [N1]; omega), if_pos (by omega), zero_add, Finset.sum_range_one]
  | i + 1, hi => by
    rw [slabAt_step m ρ c n col _ (by rw [N1]; omega), if_neg (by omega),
      show 1250 * k + (i + 1) - 1 = 1250 * k + i from by omega,
      slabAt_row k hk i (by omega), Finset.sum_range_succ _ (i + 1)]

theorem addend_eq (hJ : Cert.Spec.SendersInRange (inp m c)) (k : Fin 2) (i : Fin 1250) (t : Fin cfg1.N)
    (ht : t.val = 1250 * k.val + i.val) :
    addend m ρ c n col t
      = ∑ r : Fin 128, Cert.EdgeBlock.hot ((inp m c).idxI (ix1 (edgeOf k i r))) n * Cert.Spec.msg (inp m c) (edgeOf k i r) col := by
  unfold addend
  refine Finset.sum_congr rfl fun r _ => ?_
  have he : (edgeOf k i r).val = 128 * t.val + r.val := by
    show 160000 * k.val + 128 * i.val + r.val = 128 * t.val + r.val
    omega
  generalize edgeOf k i r = e at he ⊢
  rw [blk0_apply m ρ c t r e he]
  congr 1
  exact msgB_eq_msg (inp m c) _ _ _ _ _ _ _ r e
    ((blk1_apply m ρ c t r e he).trans (word_eq_of_inRange _ (hJ e).1 (hJ e).2))
    (blk2_apply m ρ c t r e he) (blk3_apply m ρ c t r e he) (blk4_apply m ρ c t r e he)
    (blk5_apply m ρ c t) (blk6_apply m ρ c t) (blk7_apply m ρ c t) col

end Row

end EdgeSum

open EdgeSum in

theorem accArr_apply (c : Dev nD) (hJ : Cert.Spec.SendersInRange (inp m c)) (core : Fin 2) (n : Fin 10000) (col : Fin 512) :
    accArr m ρ c (ix3 core n col)
      = ∑ e ∈ (Cert.Spec.recv (inp m c) n).filter (fun e : Fin 320000 => e.val / 160000 = core.val), Cert.Spec.msg (inp m c) e col := by
  have hk : core.val < 2 := core.isLt
  have e1 : accArr m ρ c (ix3 core n col) = slabAt m ρ c n col (1250 * core.val + 1249) := by
    rw [accArr_eq_slabs m ρ c]
    unfold slabAt
    rw [dif_pos (by rw [N1]; omega)]
    rfl
  have e2 := slabAt_row m ρ c n col core.val hk 1249 (by omega)
  rw [show 1249 + 1 = 1250 from rfl, Finset.sum_range (fun s => addAt m ρ c n col (1250 * core.val + s))] at e2
  rw [e1, e2, recv_core_sum]
  refine Finset.sum_congr rfl fun i _ => ?_
  have hi : 1250 * core.val + i.val < cfg1.N := by rw [N1]; have := i.isLt; omega
  unfold addAt
  rw [dif_pos hi]
  exact addend_eq m ρ c n col hJ core i ⟨1250 * core.val + i.val, hi⟩ rfl

end Cert.KernelIdeal.Val

end
-- ==== Proof.LibVecScatter.lean ====
import Idealize.ShloMosaic.Lib.ValueIdx
import Idealize.ShloMosaic.PureOps.Contract

noncomputable section

open scoped BigOperators

namespace Cert.LibRows

open Idealize.ShloMosaic Idealize.ShloMosaic.ValueIdx

section General
variable {s si su : Shape} (d : ScatterDims s si su) {w : Nat} (idx : IVec si w)

-- An update lands at i exactly when, on every axis, its window's start plus its window coordinate is i's coordinate.
theorem resultIdx?_eq_some_iff (u : su.Idx) (i : s.Idx) :
    d.resultIdx? u idx = some i ↔ ∀ a, d.start u idx a + (d.window u a : ℤ) = ((i a).val : ℤ) := by
  unfold ScatterDims.resultIdx?
  constructor
  · intro h a
    split at h
    · rename_i hall
      have e := congrArg (fun f : s.Idx => (f a).val) (Option.some.inj h)
      have b := (hall a).1
      simp only at e
      omega
    · cases h
  · intro h
    have hall : ∀ a, 0 ≤ d.start u idx a + (d.window u a : ℤ) ∧ d.start u idx a + (d.window u a : ℤ) < s.size a :=
      fun a => by rw [h a]; exact ⟨Int.natCast_nonneg _, Int.ofNat_lt.mpr (i a).isLt⟩
    rw [dif_pos hall]
    exact congrArg some (funext fun a => Fin.ext (by show (_ : ℤ).toNat = _; rw [h a]; exact Int.toNat_natCast _))

-- When the updates landing at i are the injective image under g of the e with p e, the sum over them is re-indexed by e.
theorem hostScatterAdd_apply (x : s.Idx → EReal) (upd : su.Idx → EReal) (i : s.Idx) {E : Nat} (p : Fin E → Prop)
    [DecidablePred p] (g : Fin E → su.Idx) (hg : Function.Injective g)
    (h : ∀ u, d.resultIdx? u idx = some i ↔ ∃ e, p e ∧ g e = u) :
    Ideal.hostScatterAdd d x idx upd i = x i + ∑ e ∈ Finset.univ.filter p, upd (g e) := by
  unfold Ideal.hostScatterAdd
  rw [← Finset.sum_image (fun _ _ _ _ hab => hg hab)]
  congr 2
  ext u
  simp only [Finset.mem_filter, Finset.mem_univ, true_and, Finset.mem_image, h]

end General

section VecScatter

abbrev vecScatter (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

-- Position n receives exactly the updates whose index word, read signed, is n.
theorem host_scatterAdd_vec_apply {φ : FTy} (x : FVec Ideal ⟨1, ![N]⟩ φ) (idx : IVec ⟨2, ![E, 1]⟩ w)
    (upd : FVec Ideal ⟨1, ![E]⟩ φ) (n : Fin N) :
    Host.scatterAdd (F := Ideal) (vecScatter N E wf) x idx upd (ix1 n)
      = x (ix1 n) + ∑ e ∈ Finset.univ.filter (fun e : Fin E => (idx (ix2 e (0 : Fin 1))).toInt = (n.val : ℤ)),
          upd (ix1 e) := by
  unfold Host.scatterAdd
  rw [Ideal.hostScatterAdd_def]
  refine hostScatterAdd_apply _ idx x upd _ _ ix1 (fun _ _ h => congrArg (· 0) h) fun u => ?_
  have e0 : (vecScatter N E wf).start u idx 0 + ((vecScatter N E wf).window u 0 : ℤ) = (idx (ix2 (u 0) (0 : Fin 1))).toInt :=
    (add_zero _).trans (congrArg (fun i => (idx i).toInt) (eq_ix2 _))
  refine (resultIdx?_eq_some_iff _ idx u _).trans ⟨fun h => ?_, ?_⟩
  · exact ⟨u 0, e0.symm.trans (h 0), (eq_ix1 u).symm⟩
  · rintro ⟨e, h, rfl⟩ a
    match a with
    | ⟨0, _⟩ => exact e0.trans h

end VecScatter

end Cert.LibRows

end
-- ==== Proof.ValTail.lean ====
import proofs.«403595_j11347303596608_3_alg».proof.Proof.ValDefs
import proofs.«403595_j11347303596608_3_alg».proof.Proof.LibVecScatter
import Idealize.ShloMosaic.Lib.ValueLayout
import Idealize.ShloMosaic.Lib.Pipeline.Value
import Idealize.ShloMosaic.PureOps.Ideal.Laws
import Idealize.ShloMosaic.Lib.StableHlo.Run
import Idealize.ShloMosaic.Lib.IdealHost

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame

variable (m : (ℓ : Loc nD τ sig) → Buf (Elt Ideal) ℓ) (ρ : Dev nD → PrngReg)

namespace Tail

section Layout
variable {α : Type}

-- An axis of extent N read through a broadcast: coordinate n, or 0 when N = 1, where n is 0.
theorem bc_ax {N : Nat} (n : Fin N) : n.val = if N = 1 then 0 else n.val := by
  split
  · have := n.isLt; omega
  · rfl

theorem bcast_col_apply {N : Nat} (h : (⟨1, ![N]⟩ : Shape).BroadcastsInDim (⟨2, ![N, 1]⟩ : Shape) (![0] : Fin 1 → Fin 2))
    (x : (⟨1, ![N]⟩ : Shape).Idx → α) (n : Fin N) (u : Fin 1) :
    broadcastInDim (⟨2, ![N, 1]⟩ : Shape) ![0] h x (ix2 n u) = x (ix1 n) :=
  broadcastInDim_apply _ h x (ix2 n u) (ix1 n) fun a => by
    match a with
    | ⟨0, _⟩ => exact bc_ax n

theorem bcast_row_apply {N M : Nat} (h : (⟨2, ![N, 1]⟩ : Shape).BroadcastsInDim (⟨2, ![N, M]⟩ : Shape) (![0, 1] : Fin 2 → Fin 2))
    (x : (⟨2, ![N, 1]⟩ : Shape).Idx → α) (n : Fin N) (f : Fin M) :
    broadcastInDim (⟨2, ![N, M]⟩ : Shape) ![0, 1] h x (ix2 n f) = x (ix2 n (0 : Fin 1)) :=
  broadcastInDim_apply _ h x (ix2 n f) (ix2 n (0 : Fin 1)) fun a => by
    match a with
    | ⟨0, _⟩ => exact bc_ax n
    | ⟨1, _⟩ => rfl

theorem bcast_unit_apply {N M : Nat} (h : (⟨2, ![N, M]⟩ : Shape).BroadcastsInDim (⟨3, ![N, M, 1]⟩ : Shape) (![0, 1] : Fin 2 → Fin 3))
    (x : (⟨2, ![N, M]⟩ : Shape).Idx → α) (n : Fin N) (f : Fin M) (u : Fin 1) :
    broadcastInDim (⟨3, ![N, M, 1]⟩ : Shape) ![0, 1] h x (ix3 n f u) = x (ix2 n f) :=
  broadcastInDim_apply _ h x (ix3 n f u) (ix2 n f) fun a => by
    match a with
    | ⟨0, _⟩ => exact bc_ax n
    | ⟨1, _⟩ => exact bc_ax f

end Layout

abbrev rdR (s : Shape) (x : s.Idx → EReal) : s.Idx → EReal := x
abbrev rdW (s : Shape) (w : Nat) (x : s.Idx → BitVec w) : s.Idx → BitVec w := x

theorem ofBits_one_f32 : Ideal.ofBits .f32 0x3F800000#32 = 1 := Ideal.ofBits_one_f32

section Stages
variable (V : Valuation τ sig (Elt Ideal))

abbrev spread (x : S10000.Idx → EReal) : S10000x128.Idx → EReal :=
  broadcastInDim S10000x128 ![0, 1] bcast_S10000x1_S10000x128_0_1 (broadcastInDim S10000x1 ![0] bcast_S10000_S10000x1_0 x)

theorem spread_apply (x : S10000.Idx → EReal) (n : Fin 10000) (f : Fin 128) : spread x (ix2 n f) = x (ix1 n) :=
  (bcast_row_apply bcast_S10000x1_S10000x128_0_1 _ n f).trans (bcast_col_apply bcast_S10000_S10000x1_0 x n 0)

theorem last_v45_apply (n : Fin 10000) (f : Fin 128) :
    rdR S10000x128 (StableHlo.after hostOps2_2 V (Proc.devRef .tc main_v45)) (ix2 n f)
      = rdR S10000x128 (V (Proc.devRef .tc main_arg5)) (ix2 n f)
        + Ideal.div (rdR S10000x128 (V (Proc.devRef .tc main_v25)) (ix2 n f)) (rdR S10000 (V (Proc.devRef .tc main_v35)) (ix1 n)) := by
  after_results
  show _ + Ideal.div _ (spread (V (Proc.devRef .tc main_v35)) (ix2 n f)) = _
  rw [spread_apply]

theorem guard_v35_apply (n : Fin 10000) :
    rdR S10000 (StableHlo.after hostOps2_1 V (Proc.devRef .tc main_v35)) (ix1 n)
      = Scalar.select (rdW S10000 1 (V (Proc.devRef .tc main_v34)) (ix1 n)) (rdR S10000 (V (Proc.devRef .tc main_v32)) (ix1 n))
          (rdR S_ (V (Proc.devRef .tc main_cst_2)) ix0) := by
  have e : rdR S10000 (StableHlo.after hostOps2_1 V (Proc.devRef .tc main_v35))
      = select (rdW S10000 1 (V (Proc.devRef .tc main_v34))) (rdR S10000 (V (Proc.devRef .tc main_v32)))
          (broadcastInDim S10000 ![] bcast_S_S10000 (rdR S_ (V (Proc.devRef .tc main_cst_2)))) := by
    after_results
    rfl
  rw [e, select_apply, broadcastInDim_scalar_apply]

theorem scatter_eq : scatter_S10000_S320000x1_S320000_n_0_0_1
    = Cert.LibRows.vecScatter 10000 320000 Facts₀.scatter_S10000_S320000x1_S320000_n_0_0_1_wf := rfl

-- The scatter of ones from a zero array counts, at node n, the edges whose receiver word is n.
theorem count_v32_apply (n : Fin 10000) :
    rdR S10000 (StableHlo.after hostOps2 V (Proc.devRef .tc main_v32)) (ix1 n)
      = ∑ _e ∈ Finset.univ.filter (fun e : Fin 320000 => (rdW S320000 32 (V (Proc.devRef .tc main_arg0)) (ix1 e)).toInt = (n.val : ℤ)),
          (1 : EReal) := by
  have e : rdR S10000 (StableHlo.after hostOps2 V (Proc.devRef .tc main_v32))
      = Host.scatterAdd (F := Ideal) (φ := .f32) scatter_S10000_S320000x1_S320000_n_0_0_1
          (broadcastInDim S10000 ![] bcast_S_S10000 (constant (F := Ideal) S_ .f32 0x00000000#32))
          (broadcastInDim S320000x1 ![0] bcast_S320000_S320000x1_0 (rdW S320000 32 (V (Proc.devRef .tc main_arg0))))
          (broadcastInDim S320000 ![] bcast_S_S320000 (constant (F := Ideal) S_ .f32 0x3F800000#32)) := by
    after_results
  rw [e, scatter_eq, Cert.LibRows.host_scatterAdd_vec_apply, broadcastInDim_scalar_apply, constant_apply, Ideal.ofBits_zero_f32, zero_add]
  refine Finset.sum_congr ?_ fun e _ => ?_
  · congr 1; funext e
    rw [bcast_col_apply]
  · rw [broadcastInDim_scalar_apply, constant_apply, ofBits_one_f32]

theorem cmp_v34_apply (n : Fin 10000) :
    rdW S10000 1 (StableHlo.after hostOps2 V (Proc.devRef .tc main_v34)) (ix1 n)
      = Ideal.cmp .ogt (rdR S10000 (StableHlo.after hostOps2 V (Proc.devRef .tc main_v32)) (ix1 n)) 0 := by
  have e : rdW S10000 1 (StableHlo.after hostOps2 V (Proc.devRef .tc main_v34))
      = cmpf (F := Ideal) (φ := .f32) .ogt (rdR S10000 (StableHlo.after hostOps2 V (Proc.devRef .tc main_v32)))
          (broadcastInDim S10000 ![] bcast_S_S10000 (constant (F := Ideal) S_ .f32 0x00000000#32)) := by
    after_results
  rw [e, cmpf_apply, Ideal.cmpf_def, broadcastInDim_scalar_apply, constant_apply, Ideal.ofBits_zero_f32]

theorem one_cst_2 : rdR S_ (StableHlo.after hostOps2 V (Proc.devRef .tc main_cst_2)) ix0 = 1 := by
  after_results
  exact ofBits_one_f32

abbrev cutSum (X : S2x10000x512.Idx → EReal) (o : Nat) (h : S10000x512.Slices ![0, o] S10000x128) : S10000x128.Idx → EReal :=
  extractStridedSlice S10000x128 ![0, o]
    (addf (F := Ideal) (φ := .f32)
      (shapeCast S10000x512 (extractStridedSlice S1x10000x512 ![0, 0, 0] X slices_S2x10000x512_S1x10000x512_0_0_0)
        shapeCasts_S1x10000x512_S10000x512)
      (shapeCast S10000x512 (extractStridedSlice S1x10000x512 ![1, 0, 0] X slices_S2x10000x512_S1x10000x512_1_0_0)
        shapeCasts_S1x10000x512_S10000x512)) h

-- The two slabs added and cut along the columns from column o: entry (n, f) is the sum of the slabs' entries (n, o + f).
theorem cutSum_apply (X : S2x10000x512.Idx → EReal) (o : Nat) (h : S10000x512.Slices ![0, o] S10000x128)
    (n : Fin 10000) (f : Fin 128) (col : Fin 512) (hc : col.val = o + f.val) :
    cutSum X o h (ix2 n f) = X (ix3 (0 : Fin 2) n col) + X (ix3 (1 : Fin 2) n col) := by
  refine (slice2_axis1_apply o _ h n f col hc).trans ?_
  show shapeCast S10000x512 _ shapeCasts_S1x10000x512_S10000x512 (ix2 n col)
    + shapeCast S10000x512 _ shapeCasts_S1x10000x512_S10000x512 (ix2 n col) = _
  rw [shapeCast_1ab_ab_apply, shapeCast_1ab_ab_apply]
  congr 1 <;> exact extractStridedSlice_apply _ X _ _ _ fun a => by
    match a with
    | ⟨0, _⟩ => rfl
    | ⟨1, _⟩ => exact (Nat.zero_add _).symm
    | ⟨2, _⟩ => exact (Nat.zero_add _).symm

theorem after_append (l₁ l₂ : List (HloOp τ sig (Elt Ideal))) (W : Valuation τ sig (Elt Ideal)) :
    StableHlo.after (l₁ ++ l₂) W = StableHlo.after l₂ (StableHlo.after l₁ W) := by
  induction l₁ generalizing W with
  | nil => rfl
  | cons op l ih => exact ih _

abbrev quotUnit (num : S10000x128.Idx → EReal) (den : S10000.Idx → EReal) : S10000x128x1.Idx → EReal :=
  broadcastInDim S10000x128x1 ![0, 1] bcast_S10000x128_S10000x128x1_0_1 (Host.divf (F := Ideal) (φ := .f32) num (spread den))

theorem quotUnit_apply (num : S10000x128.Idx → EReal) (den : S10000.Idx → EReal) (n : Fin 10000) (f : Fin 128) (u : Fin 1) :
    quotUnit num den (ix3 n f u) = Ideal.div (num (ix2 n f)) (den (ix1 n)) := by
  refine (bcast_unit_apply bcast_S10000x128_S10000x128x1_0_1 _ n f u).trans ?_
  show Ideal.div _ (spread den (ix2 n f)) = _
  rw [spread_apply]

theorem vec_sum (W : Valuation τ sig (Elt Ideal)) :
    rdR S10000x128x3 (StableHlo.after (List.drop 13 hostOps2_2) W (Proc.devRef .tc main_v50))
      = addf (F := Ideal) (φ := .f32) (W (Proc.devRef .tc main_arg6))
          (concatenate S10000x128x3 2
            [⟨S10000x128x1, W (Proc.devRef .tc main_v46)⟩, ⟨S10000x128x1, W (Proc.devRef .tc main_v47)⟩,
             ⟨S10000x128x1, W (Proc.devRef .tc main_v48)⟩]
            concatenates_S10000x128x1_S10000x128x1_S10000x128x1_S10000x128x3_d2) := by
  simp only [List.drop_succ_cons, List.drop_zero]
  after_results
  simp only [Matrix.cons_val_zero, Matrix.cons_val_one, Matrix.cons_val_two, Matrix.head_cons, Matrix.tail_cons]
  rfl

-- Three pieces with a unit last axis laid along it: direction k of entry (n, f) is piece k at (n, f, 0).
theorem concat_quot (N0 N1 N2 : S10000x128.Idx → EReal) (den : S10000.Idx → EReal) (n : Fin 10000) (f : Fin 128) (k : Fin 3) :
    concatenate S10000x128x3 2
        [⟨S10000x128x1, quotUnit N0 den⟩, ⟨S10000x128x1, quotUnit N1 den⟩, ⟨S10000x128x1, quotUnit N2 den⟩]
        concatenates_S10000x128x1_S10000x128x1_S10000x128x1_S10000x128x3_d2 (ix3 n f k)
      = Ideal.div ((![N0, N1, N2] : Fin 3 → S10000x128.Idx → EReal) k (ix2 n f)) (den (ix1 n)) := by
  have P := concatenate_apply_piece (2 : Fin S10000x128x3.rank)
    [⟨S10000x128x1, quotUnit N0 den⟩, ⟨S10000x128x1, quotUnit N1 den⟩, ⟨S10000x128x1, quotUnit N2 den⟩]
    concatenates_S10000x128x1_S10000x128x1_S10000x128x1_S10000x128x3_d2 (ix3 n f k)
  have hi : ∀ b : Fin S10000x128x1.rank, b.cast (rfl : S10000x128x1.rank = S10000x128x3.rank) ≠ 2 →
      (ix3 n f (0 : Fin 1) b).val = (ix3 n f k (b.cast rfl)).val := fun b hb => by
    match b with
    | ⟨0, _⟩ => rfl
    | ⟨1, _⟩ => rfl
    | ⟨2, _⟩ => exact absurd rfl hb
  fin_cases k
  · exact (P 0 (by show (0 : ℕ) < 3; omega) S10000x128x1 (quotUnit N0 den) rfl rfl 0 rfl (ix3 n f (0 : Fin 1)) hi rfl).trans (quotUnit_apply N0 den n f 0)
  · exact (P 1 (by show (1 : ℕ) < 3; omega) S10000x128x1 (quotUnit N1 den) rfl rfl 1 rfl (ix3 n f (0 : Fin 1)) hi rfl).trans (quotUnit_apply N1 den n f 0)
  · exact (P 2 (by show (2 : ℕ) < 3; omega) S10000x128x1 (quotUnit N2 den) rfl rfl 2 rfl (ix3 n f (0 : Fin 1)) hi rfl).trans (quotUnit_apply N2 den n f 0)

-- The vector result: the features plus the three quotients laid along the last axis.
theorem last_v50_apply (n : Fin 10000) (f : Fin 128) (k : Fin 3) :
    rdR S10000x128x3 (StableHlo.after hostOps2_2 V (Proc.devRef .tc main_v50)) (ix3 n f k)
      = rdR S10000x128x3 (V (Proc.devRef .tc main_arg6)) (ix3 n f k)
        + Ideal.div ((![V (Proc.devRef .tc main_v26), V (Proc.devRef .tc main_v27), V (Proc.devRef .tc main_v28)]
            : Fin 3 → S10000x128.Idx → EReal) k (ix2 n f)) (rdR S10000 (V (Proc.devRef .tc main_v35)) (ix1 n)) := by
  have e : rdR S10000x128x3 (StableHlo.after hostOps2_2 V (Proc.devRef .tc main_v50))
      = addf (F := Ideal) (φ := .f32) (V (Proc.devRef .tc main_arg6))
          (concatenate S10000x128x3 2
            [⟨S10000x128x1, quotUnit (V (Proc.devRef .tc main_v26)) (V (Proc.devRef .tc main_v35))⟩,
             ⟨S10000x128x1, quotUnit (V (Proc.devRef .tc main_v27)) (V (Proc.devRef .tc main_v35))⟩,
             ⟨S10000x128x1, quotUnit (V (Proc.devRef .tc main_v28)) (V (Proc.devRef .tc main_v35))⟩]
            concatenates_S10000x128x1_S10000x128x1_S10000x128x1_S10000x128x3_d2) := by
    rw [show StableHlo.after hostOps2_2 V
        = StableHlo.after (List.drop 13 hostOps2_2) (StableHlo.after (List.take 13 hostOps2_2) V) by
      rw [← after_append, List.take_append_drop], vec_sum]
    simp only [List.take_succ_cons, List.take_zero]
    after_results
  rw [e]
  exact congrArg₂ _ rfl (concat_quot _ _ _ _ n f k)

end Stages

-- The select on "the count is positive" is the guarded count.
theorem select_pos (x : EReal) : Scalar.select (Ideal.cmp .ogt x 0) x 1 = if 0 < x then x else 1 := by
  by_cases h : 0 < x
  · rw [if_pos h, show Ideal.cmp .ogt x 0 = 1#1 from by show BitVec.ofBool (decide (0 < x)) = 1#1; rw [decide_eq_true h]; rfl,
      select_one]
  · rw [if_neg h, show Ideal.cmp .ogt x 0 = 0#1 from by show BitVec.ofBool (decide (0 < x)) = 0#1; rw [decide_eq_false h]; rfl,
      select_zero]

theorem W6_arg5 (c : Dev nD) : rdR S10000x128 (W6 (F := Ideal) m ρ c (Proc.devRef .tc main_arg5)) = (inp m c).sf :=
  (StableHlo.after_of_writes_sub hostOps2_2 _ hostOps2_2_writes (by decide)).symm.trans (W7_arg m ρ c (b := main_arg5) (by decide))

theorem W6_arg6 (c : Dev nD) : rdR S10000x128x3 (W6 (F := Ideal) m ρ c (Proc.devRef .tc main_arg6)) = (inp m c).vf :=
  (StableHlo.after_of_writes_sub hostOps2_2 _ hostOps2_2_writes (by decide)).symm.trans (W7_arg m ρ c (b := main_arg6) (by decide))

theorem W4_arg0 (c : Dev nD) : rdW S320000 32 (W4 (F := Ideal) m ρ c (Proc.devRef .tc main_arg0)) = (inp m c).idxI :=
  (StableHlo.after_of_writes_sub hostOps2 _ hostOps2_writes (by decide)).symm.trans
    ((StableHlo.after_of_writes_sub hostOps2_1 _ hostOps2_1_writes (by decide)).symm.trans
      ((StableHlo.after_of_writes_sub hostOps2_2 _ hostOps2_2_writes (by decide)).symm.trans (W7_arg m ρ c (b := main_arg0) (by decide))))

-- The guarded count after the guard: the receivers' count where it is positive, else one.
theorem W6_guard (c : Dev nD) (n : Fin 10000) :
    rdR S10000 (W6 (F := Ideal) m ρ c (Proc.devRef .tc main_v35)) (ix1 n) = Cert.Spec.csafe (inp m c) n := by
  have hc : rdR S10000 (W5 (F := Ideal) m ρ c (Proc.devRef .tc main_v32)) (ix1 n) = Cert.Spec.cnt (inp m c) n := by
    refine (count_v32_apply (W4 (F := Ideal) m ρ c) n).trans ?_
    rw [W4_arg0]
    rfl
  refine (guard_v35_apply (W5 (F := Ideal) m ρ c) n).trans ?_
  rw [cmp_v34_apply (W4 (F := Ideal) m ρ c) n, one_cst_2 (W4 (F := Ideal) m ρ c)]
  show Scalar.select (Ideal.cmp .ogt (rdR S10000 (W5 (F := Ideal) m ρ c (Proc.devRef .tc main_v32)) (ix1 n)) 0)
    (rdR S10000 (W5 (F := Ideal) m ρ c (Proc.devRef .tc main_v32)) (ix1 n)) 1 = _
  rw [hc, select_pos]
  rfl

theorem W6_keep (c : Dev nD) (b : Ref sig .tc) (h : b ∉ hostOps2_1_W) :
    W6 (F := Ideal) m ρ c (Proc.devRef .tc b) = StableHlo.after hostOps2 (W4 (F := Ideal) m ρ c) (Proc.devRef .tc b) :=
  StableHlo.after_of_writes_sub hostOps2_1 _ hostOps2_1_writes h

-- The four blocks of 128 columns of the summed slabs.
theorem W6_cuts (c : Dev nD) :
    rdR S10000x128 (W6 (F := Ideal) m ρ c (Proc.devRef .tc main_v25)) = cutSum (accArr m ρ c) 0 slices_S10000x512_S10000x128_0_0
    ∧ rdR S10000x128 (W6 (F := Ideal) m ρ c (Proc.devRef .tc main_v26)) = cutSum (accArr m ρ c) 128 slices_S10000x512_S10000x128_0_128
    ∧ rdR S10000x128 (W6 (F := Ideal) m ρ c (Proc.devRef .tc main_v27)) = cutSum (accArr m ρ c) 256 slices_S10000x512_S10000x128_0_256
    ∧ rdR S10000x128 (W6 (F := Ideal) m ρ c (Proc.devRef .tc main_v28)) = cutSum (accArr m ρ c) 384 slices_S10000x512_S10000x128_0_384 := by
  refine ⟨?_, ?_, ?_, ?_⟩ <;> refine (W6_keep m ρ c _ (by decide)).trans ?_ <;> after_results <;> rfl

-- Direction k's numerator: the summed slabs' column 128·(k + 1) + f.
theorem W6_num (c : Dev nD) (n : Fin 10000) (f : Fin 128) (k : Fin 3) :
    (![W6 (F := Ideal) m ρ c (Proc.devRef .tc main_v26), W6 (F := Ideal) m ρ c (Proc.devRef .tc main_v27),
        W6 (F := Ideal) m ρ c (Proc.devRef .tc main_v28)] : Fin 3 → S10000x128.Idx → EReal) k (ix2 n f)
      = accArr m ρ c (ix3 (0 : Fin 2) n ⟨128 * (k.val + 1) + f.val, by omega⟩)
        + accArr m ρ c (ix3 (1 : Fin 2) n ⟨128 * (k.val + 1) + f.val, by omega⟩) := by
  obtain ⟨-, h1, h2, h3⟩ := W6_cuts m ρ c
  match k with
  | ⟨0, _⟩ => exact (congrFun h1 _).trans (cutSum_apply _ 128 _ n f ⟨128 * (0 + 1) + f.val, by omega⟩ rfl)
  | ⟨1, _⟩ => exact (congrFun h2 _).trans (cutSum_apply _ 256 _ n f ⟨128 * (1 + 1) + f.val, by omega⟩ rfl)
  | ⟨2, _⟩ => exact (congrFun h3 _).trans (cutSum_apply _ 384 _ n f ⟨128 * (2 + 1) + f.val, by omega⟩ rfl)

end Tail

open Tail

theorem resS_apply (c : Dev nD) (n : Fin 10000) (f : Fin 128) :
    resS m ρ c (ix2 n f)
      = (inp m c).sf (ix2 n f)
        + Ideal.div (accArr m ρ c (ix3 (0 : Fin 2) n ⟨f.val, by omega⟩) + accArr m ρ c (ix3 (1 : Fin 2) n ⟨f.val, by omega⟩))
            (Cert.Spec.csafe (inp m c) n) := by
  refine (last_v45_apply (W6 (F := Ideal) m ρ c) n f).trans ?_
  rw [W6_arg5, (W6_cuts m ρ c).1, W6_guard, cutSum_apply _ 0 _ n f ⟨f.val, by omega⟩ (Nat.zero_add _).symm]

theorem resV_apply (c : Dev nD) (n : Fin 10000) (f : Fin 128) (k : Fin 3) :
    resV m ρ c (ix3 n f k)
      = (inp m c).vf (ix3 n f k)
        + Ideal.div (accArr m ρ c (ix3 (0 : Fin 2) n ⟨128 * (k.val + 1) + f.val, by omega⟩)
                      + accArr m ρ c (ix3 (1 : Fin 2) n ⟨128 * (k.val + 1) + f.val, by omega⟩))
            (Cert.Spec.csafe (inp m c) n) := by
  refine (last_v50_apply (W6 (F := Ideal) m ρ c) n f k).trans ?_
  rw [W6_arg6, W6_guard, W6_num]

end Cert.KernelIdeal.Val

end
-- ==== Proof.KernelSpec.lean ====
import proofs.«403595_j11347303596608_3_alg».proof.Proof.ValEdge
import proofs.«403595_j11347303596608_3_alg».proof.Proof.ValTail

set_option maxRecDepth 16384

noncomputable section

open scoped BigOperators

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame

variable (m : (ℓ : Loc nD τ sig) → Buf (Elt Ideal) ℓ) (ρ : Dev nD → PrngReg)

-- The two halves of the edge list partition the edges a node receives.
theorem sum_halves (a : Cert.Spec.Inp) (n : Fin 10000) (g : Fin 320000 → EReal) :
    (∑ e ∈ (Cert.Spec.recv a n).filter (fun e : Fin 320000 => e.val / 160000 = ((0 : Fin 2) : Fin 2).val), g e)
      + (∑ e ∈ (Cert.Spec.recv a n).filter (fun e : Fin 320000 => e.val / 160000 = ((1 : Fin 2) : Fin 2).val), g e)
      = ∑ e ∈ Cert.Spec.recv a n, g e := by
  have h1 : (Cert.Spec.recv a n).filter (fun e : Fin 320000 => e.val / 160000 = ((1 : Fin 2) : Fin 2).val)
      = (Cert.Spec.recv a n).filter (fun e : Fin 320000 => ¬ e.val / 160000 = ((0 : Fin 2) : Fin 2).val) := by
    refine Finset.filter_congr fun e _ => ?_
    have he := e.isLt
    show e.val / 160000 = 1 ↔ ¬ e.val / 160000 = 0
    omega
  rw [h1]
  exact Finset.sum_filter_add_sum_filter_not _ _ _

theorem csafe_eq (a : Cert.Spec.Inp) (hR : Cert.Spec.EveryNodeReceives a) (n : Fin 10000) :
    Cert.Spec.csafe a n = Cert.Spec.cnt a n :=
  if_pos (hR n)

theorem msg_scalar (a : Cert.Spec.Inp) (e : Fin 320000) (f : Fin 128) :
    Cert.Spec.msg a e ⟨f.val, by omega⟩ = Cert.Spec.mS a e f :=
  dif_pos f.isLt

-- Column 128·(k + 1) + f of the message is channel f, direction k of the vector message.
theorem msg_vector (a : Cert.Spec.Inp) (e : Fin 320000) (f : Fin 128) (k : Fin 3) :
    Cert.Spec.msg a e ⟨128 * (k.val + 1) + f.val, by omega⟩ = Cert.Spec.mV a e f k := by
  unfold Cert.Spec.msg
  have hf := f.isLt
  have hk := k.isLt
  rw [dif_neg (show ¬ (⟨128 * (k.val + 1) + f.val, by omega⟩ : Fin 512).val < 128 from by show ¬ 128 * (k.val + 1) + f.val < 128; omega)]
  have e1 : (128 * (k.val + 1) + f.val - 128) % 128 = f.val := by omega
  have e2 : (128 * (k.val + 1) + f.val - 128) / 128 = k.val := by omega
  congr 1
  · exact Fin.ext e1
  · exact Fin.ext e2

theorem resS_spec (c : Dev nD) (hJ : Cert.Spec.SendersInRange (inp m c)) (hR : Cert.Spec.EveryNodeReceives (inp m c)) :
    resS m ρ c = Cert.Spec.outSArr (inp m c) := by
  funext i
  obtain ⟨n, f, rfl⟩ : ∃ (n : Fin 10000) (f : Fin 128), i = ix2 n f := ⟨i 0, i 1, eq_ix2 i⟩
  rw [resS_apply, accArr_apply m ρ c hJ, accArr_apply m ρ c hJ, sum_halves, csafe_eq _ hR]
  unfold Cert.Spec.outSArr Cert.Spec.outS
  simp only [msg_scalar]

theorem resV_spec (c : Dev nD) (hJ : Cert.Spec.SendersInRange (inp m c)) (hR : Cert.Spec.EveryNodeReceives (inp m c)) :
    resV m ρ c = Cert.Spec.outVArr (inp m c) := by
  funext i
  obtain ⟨n, f, k, rfl⟩ : ∃ (n : Fin 10000) (f : Fin 128) (k : Fin 3), i = ix3 n f k := ⟨i 0, i 1, i 2, eq_ix3 i⟩
  rw [resV_apply, accArr_apply m ρ c hJ, accArr_apply m ρ c hJ, sum_halves, csafe_eq _ hR]
  unfold Cert.Spec.outVArr Cert.Spec.outV
  simp only [msg_vector]

theorem run_spec (hJ : ∀ c, Cert.Spec.SendersInRange (inp m c)) (hR : ∀ c, Cert.Spec.EveryNodeReceives (inp m c)) :
    θ_run (defs (F := Ideal)) (onTc (τ := τ) (main (F := Ideal))) ⟨m, fun _ => 0, ρ⟩ (fun r => ∀ c : Dev nD,
      r.2.mem ((c.tc : Thread nD τ).loc main_v45) = Cert.Spec.outSArr (inp m c)
      ∧ r.2.mem ((c.tc : Thread nD τ).loc main_v50) = Cert.Spec.outVArr (inp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => by
    refine ⟨(h c _ (mem_uc main_v45 (by decide))).trans (resS_spec m ρ c (hJ c) (hR c)),
      (h c _ (mem_uc main_v50 (by decide))).trans (resV_spec m ρ c (hJ c) (hR c)), ?_⟩
    repeat' apply And.intro
    all_goals exact (h c _ (mem_uc _ (by decide))).trans (W7_arg m ρ c (by decide))) (run_all (F := Ideal) m ρ)

end Cert.KernelIdeal.Val

end
-- ==== Proof.LibRowGatherScatter.lean ====
import Idealize.ShloMosaic.Lib.ValueIdx
import Idealize.ShloMosaic.PureOps.Contract
import proofs.«403595_j11347303596608_3_alg».proof.Proof.LibVecScatter

noncomputable section

open scoped BigOperators

namespace Cert.LibRows

open Idealize.ShloMosaic Idealize.ShloMosaic.ValueIdx

section Gather
variable {α : Type}

abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

-- Entry (e, j) of the gathered rows is the table at row idx[e, 0], read signed and clamped into [0, N - 1], and column j.
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowGather N E C wf) x idx (ix2 e j)
      = x (ix2 ⟨min (idx (ix2 e (0 : Fin 1))).toInt.toNat (N - 1), by omega⟩ j) := by
  unfold Host.gather
  refine congrArg x (funext fun a => Fin.ext ?_)
  match a with
  | ⟨0, _⟩ => exact congrArg (fun i => min (idx i).toInt.toNat (N - 1)) (eq_ix2 _)
  | ⟨1, _⟩ => exact Nat.zero_add _

end Gather

section Scatter

abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

-- Position (n, j) receives column j of exactly the update rows whose index word, read signed, is n.
theorem host_scatterAdd_rows_apply {φ : FTy} (x : FVec Ideal ⟨2, ![N, C]⟩ φ) (idx : IVec ⟨2, ![E, 1]⟩ w)
    (upd : FVec Ideal ⟨2, ![E, C]⟩ φ) (n : Fin N) (j : Fin C) :
    Host.scatterAdd (F := Ideal) (rowScatter N E C wf) x idx upd (ix2 n j)
      = x (ix2 n j) + ∑ e ∈ Finset.univ.filter (fun e : Fin E => (idx (ix2 e (0 : Fin 1))).toInt = (n.val : ℤ)),
          upd (ix2 e j) := by
  unfold Host.scatterAdd
  rw [Ideal.hostScatterAdd_def]
  refine hostScatterAdd_apply _ idx x upd _ _ (ix2 · j) (fun _ _ h => congrArg (· 0) h) fun u => ?_
  have e0 : (rowScatter N E C wf).start u idx 0 + ((rowScatter N E C wf).window u 0 : ℤ) = (idx (ix2 (u 0) (0 : Fin 1))).toInt :=
    (add_zero _).trans (congrArg (fun i => (idx i).toInt) (eq_ix2 _))
  refine (resultIdx?_eq_some_iff _ idx u _).trans ⟨fun h => ?_, ?_⟩
  · obtain rfl : u 1 = j := Fin.ext (Int.ofNat_inj.mp ((zero_add _).symm.trans (h 1)))
    exact ⟨u 0, e0.symm.trans (h 0), (eq_ix2 u).symm⟩
  · rintro ⟨e, h, rfl⟩ a
    match a with
    | ⟨0, _⟩ => exact e0.trans h
    | ⟨1, _⟩ => exact zero_add _

end Scatter

end Cert.LibRows

end
-- ==== Proof.RefSpec.lean ====
import proofs.«403595_j11347303596608_3_alg».proof.Defs
import proofs.«403595_j11347303596608_3_alg».proof.Proof.Gen.ReferenceIdeal.Run
import proofs.«403595_j11347303596608_3_alg».proof.Proof.Gen.ReferenceIdeal.Read
import proofs.«403595_j11347303596608_3_alg».proof.Proof.Spec
import proofs.«403595_j11347303596608_3_alg».proof.Proof.LibRowGatherScatter
import proofs.«403595_j11347303596608_3_alg».proof.Proof.LibVecScatter
import proofs.«403595_j11347303596608_3_alg».proof.Proof.LibSageSpec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws
import Idealize.ShloMosaic.Lib.StableHlo.Run

noncomputable section

open scoped BigOperators

namespace Cert.RefValue

open Idealize.ShloMosaic Idealize.ShloMosaic.TcCoe Idealize.SL.Sem Idealize.ShloMosaic.ValueIdx

section Gather3
variable {α : Type}

abbrev slabGather (N E C D : Nat)
    (wf : GatherDims.WF ⟨3, ![N, C, D]⟩ ⟨2, ![E, 1]⟩ ⟨3, ![E, C, D]⟩ [1, 2] [0] [] [0] [] 1 ![1, C, D]) :
    GatherDims ⟨3, ![N, C, D]⟩ ⟨2, ![E, 1]⟩ ⟨3, ![E, C, D]⟩ where
  offsetDims := [1, 2]
  collapsedSliceDims := [0]
  operandBatchingDims := []
  startIndicesBatchingDims := []
  startIndexMap := [0]
  indexVectorDim := 1
  sliceSizes := ![1, C, D]
  wf := wf

-- Entry (e, j, k) of the gathered slabs is the table at slab idx[e, 0], read signed and clamped into [0, N - 1], at (j, k).
theorem gather_slabs_apply {N E C D w : Nat} (hN : 0 < N)
    (wf : GatherDims.WF ⟨3, ![N, C, D]⟩ ⟨2, ![E, 1]⟩ ⟨3, ![E, C, D]⟩ [1, 2] [0] [] [0] [] 1 ![1, C, D])
    (x : (⟨3, ![N, C, D]⟩ : Shape).Idx → α) (idx : IVec ⟨2, ![E, 1]⟩ w) (e : Fin E) (j : Fin C) (k : Fin D) :
    Host.gather (slabGather N E C D wf) x idx (ix3 e j k)
      = x (ix3 ⟨min (idx (ix2 e (0 : Fin 1))).toInt.toNat (N - 1), by omega⟩ j k) := by
  unfold Host.gather
  refine congrArg x (funext fun a => Fin.ext ?_)
  match a with
  | ⟨0, _⟩ => exact congrArg (fun i => min (idx i).toInt.toNat (N - 1)) (eq_ix2 _)
  | ⟨1, _⟩ => exact Nat.zero_add _
  | ⟨2, _⟩ => exact Nat.zero_add _

end Gather3

section Scatter3

abbrev slabScatter (N E C D : Nat)
    (wf : ScatterDims.WF ⟨3, ![N, C, D]⟩ ⟨2, ![E, 1]⟩ ⟨3, ![E, C, D]⟩ [1, 2] [0] [0] 1) :
    ScatterDims ⟨3, ![N, C, D]⟩ ⟨2, ![E, 1]⟩ ⟨3, ![E, C, D]⟩ where
  updateWindowDims := [1, 2]
  insertedWindowDims := [0]
  scatterDimsToOperandDims := [0]
  indexVectorDim := 1
  wf := wf

variable {N E C D w : Nat} (wf : ScatterDims.WF ⟨3, ![N, C, D]⟩ ⟨2, ![E, 1]⟩ ⟨3, ![E, C, D]⟩ [1, 2] [0] [0] 1)

-- Position (n, j, k) receives entry (j, k) of exactly the update slabs whose index word, read signed, is n.
theorem host_scatterAdd_slabs_apply {φ : FTy} (x : FVec Ideal ⟨3, ![N, C, D]⟩ φ) (idx : IVec ⟨2, ![E, 1]⟩ w)
    (upd : FVec Ideal ⟨3, ![E, C, D]⟩ φ) (n : Fin N) (j : Fin C) (k : Fin D) :
    Host.scatterAdd (F := Ideal) (slabScatter N E C D wf) x idx upd (ix3 n j k)
      = x (ix3 n j k) + ∑ e ∈ Finset.univ.filter (fun e : Fin E => (idx (ix2 e (0 : Fin 1))).toInt = (n.val : ℤ)),
          upd (ix3 e j k) := by
  unfold Host.scatterAdd
  rw [Ideal.hostScatterAdd_def]
  refine Cert.LibRows.hostScatterAdd_apply _ idx x upd _ _ (ix3 · j k) (fun _ _ h => congrArg (· 0) h) fun u => ?_
  have e0 : (slabScatter N E C D wf).start u idx 0 + ((slabScatter N E C D wf).window u 0 : ℤ) = (idx (ix2 (u 0) (0 : Fin 1))).toInt :=
    (add_zero _).trans (congrArg (fun i => (idx i).toInt) (eq_ix2 _))
  refine (Cert.LibRows.resultIdx?_eq_some_iff _ idx u _).trans ⟨fun h => ?_, ?_⟩
  · obtain rfl : u 1 = j := Fin.ext (Int.ofNat_inj.mp ((zero_add _).symm.trans (h 1)))
    obtain rfl : u 2 = k := Fin.ext (Int.ofNat_inj.mp ((zero_add _).symm.trans (h 2)))
    exact ⟨u 0, e0.symm.trans (h 0), (eq_ix3 u).symm⟩
  · rintro ⟨e, h, rfl⟩ a
    match a with
    | ⟨0, _⟩ => exact e0.trans h
    | ⟨1, _⟩ => exact zero_add _
    | ⟨2, _⟩ => exact zero_add _

end Scatter3

section Stages

open Cert.ReferenceIdeal Cert.ReferenceIdeal.Gen Cert.ReferenceIdeal.Read

variable (a : Cert.Spec.Inp)

theorem hid_at (n : Fin 10000) (k : Fin 128) :
    val_main_v3 (F := Ideal) a.sf a.W1 a.b1 (ix2 n k) = Cert.Spec.hid a n k := by
  have el : ∀ l : Fin 128, lidx_main_v0 (ix2 n k) l = ix2 n l := fun l => eq_ix2 _
  have er : ∀ l : Fin 128, ridx_main_v0 (ix2 n k) l = ix2 l k := fun l => eq_ix2 _
  have eb : idx_main_v1 (idx_main_v2 (ix2 n k)) = ix1 k := eq_ix1 _
  rw [val_main_v3_apply, val_main_v0_apply, val_main_v2_apply, val_main_v1_apply, eb]
  simp only [el, er, Ideal.addf_def]
  rfl

theorem act_at (n : Fin 10000) (k : Fin 128) :
    val_main_v4 (F := Ideal) a.sf a.W1 a.b1 (ix2 n k) = Cert.Spec.silu (Cert.Spec.hid a n k) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, hid_at]
  simp only [Ideal.mulf_def, Ideal.hostDivf_def, Ideal.addf_def, Ideal.hostUnary_exp_def, Ideal.hostNegf_def,
    Ideal.negf_def, Ideal.ofBits_def, Ideal.ofBits_one_f32]
  rfl

theorem phi_at (n : Fin 10000) (c : Fin 384) :
    val_main_v8 (F := Ideal) a.sf a.W1 a.b1 a.W2 a.b2 (ix2 n c) = Cert.Spec.phi a n c := by
  have el : ∀ l : Fin 128, lidx_main_v5 (ix2 n c) l = ix2 n l := fun l => eq_ix2 _
  have er : ∀ l : Fin 128, ridx_main_v5 (ix2 n c) l = ix2 l c := fun l => eq_ix2 _
  have eb : idx_main_v6 (idx_main_v7 (ix2 n c)) = ix1 c := eq_ix1 _
  rw [val_main_v8_apply, val_main_v5_apply, val_main_v7_apply, val_main_v6_apply, eb]
  simp only [el, er, act_at, Ideal.addf_def]
  rfl

theorem wg_at (e : Fin 320000) (c : Fin 384) :
    val_main_v15 (F := Ideal) a.dist a.rbf a.Wr a.br (ix2 e c) = Cert.Spec.wg a e c := by
  have el : ∀ l : Fin 20, lidx_main_v9 (ix2 e c) l = ix2 e l := fun l => eq_ix2 _
  have er : ∀ l : Fin 20, ridx_main_v9 (ix2 e c) l = ix2 l c := fun l => eq_ix2 _
  have eb : idx_main_v10 (idx_main_v11 (ix2 e c)) = ix1 c := eq_ix1 _
  have ed : idx_main_v13 (idx_main_v14 (ix2 e c)) = ix1 e := eq_ix1 _
  rw [val_main_v15_apply, val_main_v12_apply, val_main_v9_apply, val_main_v11_apply, val_main_v10_apply, eb,
    val_main_v14_apply, val_main_v13_apply, ed]
  simp only [el, er, Ideal.addf_def, Ideal.mulf_def]
  rfl

end Stages

section Messages

open Cert.ReferenceIdeal Cert.ReferenceIdeal.Gen Cert.ReferenceIdeal.Read

theorem wrap_word (x : BitVec 32) (h : 0 ≤ x.toInt) :
    Scalar.select (IntOp.cmpi .slt x 0#32) (IntOp.addi x 10000#32) x = x := by
  have h0 : IntOp.cmpi .slt x 0#32 = 0#1 := by
    have hn : ¬ x.toInt < (0#32 : BitVec 32).toInt := by
      rw [show (0#32 : BitVec 32).toInt = 0 from rfl]; omega
    simp only [IntOp.cmpi, BitVec.slt, decide_eq_false hn]
    rfl
  rw [h0, select_zero]

variable (a : Cert.Spec.Inp) (hJ : Cert.Spec.SendersInRange a)
include hJ

theorem sender_at (e : Fin 320000) :
    val_main_v21 (F := Ideal) a.idxJ (ix2 e (0 : Fin 1)) = a.idxJ (ix1 e) := by
  have ei : idx_main_v21 (ix2 e (0 : Fin 1)) = ix1 e := eq_ix1 _
  rw [val_main_v21_apply, ei, val_main_v20_apply, val_main_v17_apply, val_main_v19_apply, val_main_v16_apply,
    val_main_c_apply, val_main_v18_apply, val_main_c_0_apply]
  exact wrap_word _ (hJ e).1

theorem sender'_at (e : Fin 320000) :
    val_main_v42 (F := Ideal) a.idxJ (ix2 e (0 : Fin 1)) = a.idxJ (ix1 e) := by
  have ei : idx_main_v42 (ix2 e (0 : Fin 1)) = ix1 e := eq_ix1 _
  rw [val_main_v42_apply, ei, val_main_v41_apply, val_main_v38_apply, val_main_v40_apply, val_main_v37_apply,
    val_main_c_3_apply, val_main_v39_apply, val_main_c_4_apply]
  exact wrap_word _ (hJ e).1

theorem phiJ_at (e : Fin 320000) (c : Fin 384) :
    val_main_v22 (F := Ideal) a.idxJ a.sf a.W1 a.b1 a.W2 a.b2 (ix2 e c) = Cert.Spec.phi a (Cert.Spec.jOf a e) c := by
  unfold val_main_v22
  refine (Cert.LibRows.gather_rows_apply (N := 10000) (E := 320000) (C := 384) (by decide)
    gather_S10000x384_S320000x1_S320000x384_1_0_n_n_0_1_1384_wf _ _ e c).trans ?_
  simp only [sender_at a hJ e]
  exact phi_at a (Cert.Spec.jOf a e) c

theorem pw_at (e : Fin 320000) (c : Fin 384) :
    val_main_v23 (F := Ideal) a.idxJ a.dist a.rbf a.sf a.W1 a.b1 a.W2 a.b2 a.Wr a.br (ix2 e c) = Cert.Spec.pw a e c := by
  rw [val_main_v23_apply, phiJ_at a hJ, wg_at]
  rfl

theorem mS_at (e : Fin 320000) (f : Fin 128) :
    val_main_v25 (F := Ideal) a.idxJ a.dist a.rbf a.sf a.W1 a.b1 a.W2 a.b2 a.Wr a.br (ix2 e f) = Cert.Spec.mS a e f := by
  have ei : idx_main_v25 (ix2 e f) = ix2 e (⟨128 + f.val, by omega⟩ : Fin 384) := eq_ix2 _
  rw [val_main_v25_apply, ei, pw_at a hJ]
  rfl

theorem vfJ_at (e : Fin 320000) (f : Fin 128) (k : Fin 3) :
    val_main_v43 (F := Ideal) a.idxJ a.vf (ix3 e f k) = a.vf (ix3 (Cert.Spec.jOf a e) f k) := by
  unfold val_main_v43
  refine (gather_slabs_apply (N := 10000) (E := 320000) (C := 128) (D := 3) (by decide)
    gather_S10000x128x3_S320000x1_S320000x128x3_12_0_n_n_0_1_11283_wf _ _ e f k).trans ?_
  simp only [sender'_at a hJ e]
  rfl

theorem mV_at (e : Fin 320000) (f : Fin 128) (k : Fin 3) :
    val_main_v52 (F := Ideal) a.idxJ a.rdir a.dist a.rbf a.sf a.vf a.W1 a.b1 a.W2 a.b2 a.Wr a.br (ix3 e f k)
      = Cert.Spec.mV a e f k := by
  have e1 : idx_main_v24 (idx_main_v44 (idx_main_v45 (ix3 e f k))) = ix2 e (⟨f.val, by omega⟩ : Fin 384) := eq_ix2 _
  have e2 : idx_main_v26 (idx_main_v47 (idx_main_v49 (ix3 e f k))) = ix2 e (⟨256 + f.val, by omega⟩ : Fin 384) := eq_ix2 _
  have e3 : idx_main_v48 (idx_main_v50 (ix3 e f k)) = ix2 e k := eq_ix2 _
  rw [val_main_v52_apply, val_main_v46_apply, vfJ_at a hJ, val_main_v45_apply, val_main_v44_apply,
    val_main_v24_apply, e1, pw_at a hJ, val_main_v51_apply, val_main_v49_apply, val_main_v47_apply,
    val_main_v26_apply, e2, pw_at a hJ, val_main_v50_apply, val_main_v48_apply, e3]
  rfl

end Messages

section Sums

open Cert.ReferenceIdeal Cert.ReferenceIdeal.Gen Cert.ReferenceIdeal.Read

variable (a : Cert.Spec.Inp)

theorem recvC_at (e : Fin 320000) : val_main_v29 (F := Ideal) a.idxI (ix2 e (0 : Fin 1)) = a.idxI (ix1 e) := by
  rw [val_main_v29_apply]
  exact congrArg a.idxI (eq_ix1 _)

theorem recvS_at (e : Fin 320000) : val_main_v32 (F := Ideal) a.idxI (ix2 e (0 : Fin 1)) = a.idxI (ix1 e) := by
  rw [val_main_v32_apply]
  exact congrArg a.idxI (eq_ix1 _)

theorem recvV_at (e : Fin 320000) : val_main_v54 (F := Ideal) a.idxI (ix2 e (0 : Fin 1)) = a.idxI (ix1 e) := by
  rw [val_main_v54_apply]
  exact congrArg a.idxI (eq_ix1 _)

theorem cnt_at (n : Fin 10000) : val_main_v30 (F := Ideal) a.idxI (ix1 n) = Cert.Spec.cnt a n := by
  unfold val_main_v30
  refine (Cert.LibRows.host_scatterAdd_vec_apply (N := 10000) (E := 320000)
    scatter_S10000_S320000x1_S320000_n_0_0_1_wf _ _ _ n).trans ?_
  rw [val_main_v28_apply, val_main_cst_1_apply]
  simp only [recvC_at, val_main_v27_apply, val_main_cst_apply, Ideal.ofBits_def, Ideal.ofBits_zero_f32,
    Ideal.ofBits_one_f32, zero_add]
  rfl

variable (hJ : Cert.Spec.SendersInRange a)
include hJ

theorem sumS_at (n : Fin 10000) (f : Fin 128) :
    val_main_v33 (F := Ideal) a.idxI a.idxJ a.dist a.rbf a.sf a.W1 a.b1 a.W2 a.b2 a.Wr a.br (ix2 n f)
      = ∑ e ∈ Cert.Spec.recv a n, Cert.Spec.mS a e f := by
  unfold val_main_v33
  refine (Cert.LibRows.host_scatterAdd_rows_apply (N := 10000) (E := 320000) (C := 128)
    scatter_S10000x128_S320000x1_S320000x128_1_0_0_1_wf _ _ _ n f).trans ?_
  rw [val_main_v31_apply, val_main_cst_2_apply]
  simp only [recvS_at, mS_at a hJ, Ideal.ofBits_def, Ideal.ofBits_zero_f32, zero_add]
  rfl

theorem sumV_at (n : Fin 10000) (f : Fin 128) (k : Fin 3) :
    val_main_v55 (F := Ideal) a.idxI a.idxJ a.rdir a.dist a.rbf a.sf a.vf a.W1 a.b1 a.W2 a.b2 a.Wr a.br (ix3 n f k)
      = ∑ e ∈ Cert.Spec.recv a n, Cert.Spec.mV a e f k := by
  unfold val_main_v55
  refine (host_scatterAdd_slabs_apply (N := 10000) (E := 320000) (C := 128) (D := 3)
    scatter_S10000x128x3_S320000x1_S320000x128x3_12_0_0_1_wf _ _ _ n f k).trans ?_
  rw [val_main_v53_apply, val_main_cst_5_apply]
  simp only [recvV_at, mV_at a hJ, Ideal.ofBits_def, Ideal.ofBits_zero_f32, zero_add]
  rfl

theorem outS_at (n : Fin 10000) (f : Fin 128) :
    val_main_v59 (F := Ideal) a.idxI a.idxJ a.dist a.rbf a.sf a.W1 a.b1 a.W2 a.b2 a.Wr a.br (ix2 n f)
      = Cert.Spec.outS a n f := by
  have ec : idx_main_v34 (idx_main_v35 (ix2 n f)) = ix1 n := eq_ix1 _
  rw [val_main_v59_apply, val_main_v36_apply, sumS_at a hJ, val_main_v35_apply, val_main_v34_apply, ec, cnt_at]
  rfl

theorem outV_at (n : Fin 10000) (f : Fin 128) (k : Fin 3) :
    val_main_v60 (F := Ideal) a.idxI a.idxJ a.rdir a.dist a.rbf a.sf a.vf a.W1 a.b1 a.W2 a.b2 a.Wr a.br (ix3 n f k)
      = Cert.Spec.outV a n f k := by
  have ec : idx_main_v56 (idx_main_v57 (ix3 n f k)) = ix1 n := eq_ix1 _
  rw [val_main_v60_apply, val_main_v58_apply, sumV_at a hJ, val_main_v57_apply, val_main_v56_apply, ec, cnt_at]
  rfl

theorem outSArr_eq :
    val_main_v59 (F := Ideal) a.idxI a.idxJ a.dist a.rbf a.sf a.W1 a.b1 a.W2 a.b2 a.Wr a.br = Cert.Spec.outSArr a :=
  funext fun i => (congrArg _ (eq_ix2 i)).trans (outS_at a hJ (i 0) (i 1))

theorem outVArr_eq :
    val_main_v60 (F := Ideal) a.idxI a.idxJ a.rdir a.dist a.rbf a.sf a.vf a.W1 a.b1 a.W2 a.b2 a.Wr a.br
      = Cert.Spec.outVArr a :=
  funext fun i => (congrArg _ (eq_ix3 i)).trans (outV_at a hJ (i 0) (i 1) (i 2))

end Sums

variable [Cert.ReferenceIdeal.Facts]

def inp (m : (ℓ : Loc Cert.ReferenceIdeal.nD Cert.ReferenceIdeal.τ Cert.ReferenceIdeal.sig) → Buf (Elt Ideal) ℓ) (c : Dev Cert.ReferenceIdeal.nD) : Cert.Spec.Inp :=
  ⟨(m ((c.tc : Thread Cert.ReferenceIdeal.nD Cert.ReferenceIdeal.τ).loc Cert.ReferenceIdeal.main_arg0)),
   (m ((c.tc : Thread Cert.ReferenceIdeal.nD Cert.ReferenceIdeal.τ).loc Cert.ReferenceIdeal.main_arg1)),
   (m ((c.tc : Thread Cert.ReferenceIdeal.nD Cert.ReferenceIdeal.τ).loc Cert.ReferenceIdeal.main_arg2)),
   (m ((c.tc : Thread Cert.ReferenceIdeal.nD Cert.ReferenceIdeal.τ).loc Cert.ReferenceIdeal.main_arg3)),
   (m ((c.tc : Thread Cert.ReferenceIdeal.nD Cert.ReferenceIdeal.τ).loc Cert.ReferenceIdeal.main_arg4)),
   (m ((c.tc : Thread Cert.ReferenceIdeal.nD Cert.ReferenceIdeal.τ).loc Cert.ReferenceIdeal.main_arg5)),
   (m ((c.tc : Thread Cert.ReferenceIdeal.nD Cert.ReferenceIdeal.τ).loc Cert.ReferenceIdeal.main_arg6)),
   (m ((c.tc : Thread Cert.ReferenceIdeal.nD Cert.ReferenceIdeal.τ).loc Cert.ReferenceIdeal.main_arg7)),
   (m ((c.tc : Thread Cert.ReferenceIdeal.nD Cert.ReferenceIdeal.τ).loc Cert.ReferenceIdeal.main_arg8)),
   (m ((c.tc : Thread Cert.ReferenceIdeal.nD Cert.ReferenceIdeal.τ).loc Cert.ReferenceIdeal.main_arg9)),
   (m ((c.tc : Thread Cert.ReferenceIdeal.nD Cert.ReferenceIdeal.τ).loc Cert.ReferenceIdeal.main_arg10)),
   (m ((c.tc : Thread Cert.ReferenceIdeal.nD Cert.ReferenceIdeal.τ).loc Cert.ReferenceIdeal.main_arg11)),
   (m ((c.tc : Thread Cert.ReferenceIdeal.nD Cert.ReferenceIdeal.τ).loc Cert.ReferenceIdeal.main_arg12))⟩

theorem run_spec (m : (ℓ : Loc Cert.ReferenceIdeal.nD Cert.ReferenceIdeal.τ Cert.ReferenceIdeal.sig) → Buf (Elt Ideal) ℓ) (ρ : Dev Cert.ReferenceIdeal.nD → PrngReg)
    (hJ : ∀ c, Cert.Spec.SendersInRange (inp m c)) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v59) = Cert.Spec.outSArr (inp m c)
      ∧ r.2.mem ((c.tc : Thread Cert.ReferenceIdeal.nD Cert.ReferenceIdeal.τ).loc Cert.ReferenceIdeal.main_v60) = Cert.Spec.outVArr (inp m c)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)) := by
  refine (θ_run _ _ _).mono (fun _ h c => ⟨(h c).1.trans ?_, (h c).2.1.trans ?_, (h c).2.2⟩)
    (Cert.ReferenceIdeal.Value.run (F := Ideal) m ρ)
  · exact (Cert.ReferenceIdeal.Read.val_main_v59_eq _ _ _ _ _ _ _ _ _ _ _).trans (outSArr_eq (inp m c) (hJ c))
  · exact (Cert.ReferenceIdeal.Read.val_main_v60_eq m c).trans (outVArr_eq (inp m c) (hJ c))

end Cert.RefValue

end
-- ==== Proof.PreFacts.lean ====
import proofs.«403595_j11347303596608_3_alg».proof.Pre_finite_inputs
import proofs.«403595_j11347303596608_3_alg».proof.Proof.Gen.Pre_finite_inputs
import proofs.«403595_j11347303596608_3_alg».proof.Proof.Spec
import proofs.«403595_j11347303596608_3_alg».proof.Proof.LibVecScatter
import Idealize.ShloMosaic.Lib.ReduceAll
import Idealize.ShloMosaic.Lib.StableHlo.Predicate
import Idealize.ShloMosaic.Lib.ValueIdx
import Idealize.ShloMosaic.Lib.IdealHost
import Idealize.ShloMosaic.PureOps.Ideal.Laws

noncomputable section

open scoped BigOperators

namespace Cert.PreFacts

open Idealize.ShloMosaic Idealize.ShloMosaic.ValueIdx
open Cert.Pre_finite_inputs

local instance : Subsingleton S_.Idx := ⟨fun _ _ => funext fun d => d.elim0⟩

theorem bcast_col_read {α : Type} (hb : S320000.BroadcastsInDim S320000x1 (![0] : Fin 1 → Fin S320000x1.rank))
    (v : S320000.Idx → α) (e : Fin 320000) :
    broadcastInDim S320000x1 ![0] hb v (ix2 e (0 : Fin 1)) = v (ix1 e) := by
  unfold broadcastInDim
  refine congrArg v (funext fun d => Fin.ext ?_)
  match d with
  | ⟨0, _⟩ =>
    rw [dif_neg (show ¬ S320000.size (⟨0, by decide⟩ : Fin S320000.rank) = 1 by decide)]
    rfl

theorem cmp_ogt_eq_one {x y : EReal} (h : Ideal.cmp .ogt x y = 1#1) : y < x := by
  unfold Ideal.cmp at h
  exact of_decide_eq_true ((StableHlo.Predicate.ofBool_eq_one_iff _).1 h)

theorem part4_read [Facts] (v61 : IVec S_ 1) (v65 v66 : FVec Ideal S10000 .f32)
    (h : fn_part4 (F := Ideal) v61 v65 v66 ix0 = 1#1) :
    v61 ix0 = 1#1 ∧ ∀ n : S10000.Idx, v66 n < v65 n := by
  dsimp only [fn_part4, andi] at h
  obtain ⟨h1, h2⟩ := IntOp.andi_eq_one.1 h
  refine ⟨h1, fun n => ?_⟩
  have h3 := Host.reduce_andi_all _ _ _ _ _ h2 n
  rw [cmpf_apply, Ideal.cmpf_def] at h3
  exact cmp_ogt_eq_one h3

theorem part3_read [Facts] (arg0 arg1 : IVec S320000 32) (v48 : IVec S_ 1) (v49 v50 : FVec Ideal S384 .f32)
    (h : fn_part3 (F := Ideal) arg0 arg1 v48 v49 v50 ix0 = 1#1) :
    (∀ e : Fin 320000, 0 ≤ (arg1 (ix1 e)).toInt ∧ (arg1 (ix1 e)).toInt < 10000)
    ∧ ∀ n : Fin 10000, (0 : EReal) <
        ∑ _e ∈ Finset.univ.filter (fun e : Fin 320000 => (arg0 (ix1 e)).toInt = (n.val : ℤ)), (1 : EReal) := by
  dsimp only [fn_part3] at h
  obtain ⟨h1, hpos⟩ := part4_read _ _ _ h
  dsimp only [andi] at h1
  obtain ⟨h2, hlt⟩ := IntOp.andi_eq_one.1 h1
  obtain ⟨_, hge⟩ := IntOp.andi_eq_one.1 h2
  refine ⟨fun e => ⟨?_, ?_⟩, fun n => ?_⟩
  · have h3 : IntOp.cmpi .sge (arg1 (ix1 e)) 0#32 = 1#1 := Host.reduce_andi_all _ _ _ _ _ hge (ix1 e)
    have h4 := IntOp.cmpi_sge.1 h3
    rwa [BitVec.toInt_zero] at h4
  · have h3 : IntOp.cmpi .slt (arg1 (ix1 e)) 10000#32 = 1#1 := Host.reduce_andi_all _ _ _ _ _ hlt (ix1 e)
    have h4 := IntOp.cmpi_slt.1 h3
    rwa [StableHlo.Predicate.toInt_ofNat_small 10000 (by norm_num)] at h4
  · have h3 := hpos (ix1 n)
    rw [broadcastInDim_scalar_apply, constant_apply, Ideal.ofBits_zero_f32] at h3
    have hs := Cert.LibRows.host_scatterAdd_vec_apply (φ := .f32) Facts.scatter_S10000_S320000x1_S320000_n_0_0_1_wf
      (broadcastInDim S10000 ![] Facts.bcast_S_S10000 (constant (F := Ideal) S_ .f32 0x00000000#32))
      (broadcastInDim S320000x1 ![0] Facts.bcast_S320000_S320000x1_0 arg0)
      (broadcastInDim S320000 ![] Facts.bcast_S_S320000 (constant (F := Ideal) S_ .f32 0x3F800000#32)) n
    refine lt_of_lt_of_eq h3 (hs.trans ?_)
    rw [broadcastInDim_scalar_apply, constant_apply, Ideal.ofBits_zero_f32, zero_add]
    refine Finset.sum_congr (Finset.filter_congr fun e _ => by rw [bcast_col_read]) fun e _ => ?_
    rw [broadcastInDim_scalar_apply, constant_apply, Ideal.ofBits_one_f32]

theorem of_pre [Cert.Pre_finite_inputs.Facts] (a : Cert.Spec.Inp)
    (h : Cert.Pre_finite_inputs.fn (F := Ideal) a.idxI a.idxJ a.rdir a.dist a.rbf a.sf a.vf a.W1 a.b1 a.W2 a.b2 a.Wr a.br = (fun _ => 1#1)) :
    Cert.Spec.SendersInRange a ∧ Cert.Spec.EveryNodeReceives a := by
  have h0 := congrFun h ix0
  have h1 : fn_part3 (F := Ideal) a.idxI a.idxJ _ _ _ ix0 = 1#1 := h0
  exact part3_read _ _ _ _ _ h1

end Cert.PreFacts

end
-- ==== Proof.lean ====
import proofs.«403595_j11347303596608_3_alg».proof.Defs
import proofs.«403595_j11347303596608_3_alg».proof.Proof.Gen.Kernel
import proofs.«403595_j11347303596608_3_alg».proof.Proof.Gen.KernelIdeal
import proofs.«403595_j11347303596608_3_alg».proof.Proof.Gen.ReferenceIdeal
import proofs.«403595_j11347303596608_3_alg».proof.Proof.Gen.Pre_finite_inputs
import proofs.«403595_j11347303596608_3_alg».proof.Proof.KernelSpec
import proofs.«403595_j11347303596608_3_alg».proof.Proof.RefSpec
import proofs.«403595_j11347303596608_3_alg».proof.Proof.PreFacts
import Idealize.ShloMosaic.Adequacy
import Idealize.ShloMosaic.Init

noncomputable section

namespace Cert.Proof

open Idealize.ShloMosaic Idealize.SL.Sem

set_option maxHeartbeats 1000000 in
/-- The kernel as printed and its idealization are one text, so their tables of kernel bodies agree label by label. -/
theorem defs₀_eq {F : FTy → Type} [FloatOps F] : Cert.Kernel.defs₀ (F := F) = Cert.KernelIdeal.defs₀ (F := F) := by
  funext p l x
  match p, l, x with
  | .tc, 0, (t, s) => rfl
  | .tc, 1, (t, s) => rfl
  | .scScalar _, _, _ => rfl
  | .scVector _ _, _, _ => rfl

theorem defs_eq {F : FTy → Type} [FloatOps F] : Cert.Kernel.defs (F := F) = Cert.KernelIdeal.defs (F := F) :=
  congrArg (Pipeline.defs Cert.KernelIdeal.pcfgs) defs₀_eq

set_option maxHeartbeats 1000000 in
/-- Hence the idealization's frame, which holds at every float instance, is the printed kernel's. -/
theorem frame_k : Cert.frame_Kernel := fun m ρ _ =>
  defs_eq (F := Bits) ▸ Cert.KernelIdeal.Frame.frame (F := Bits) m ρ

theorem frame_ki : Cert.frame_KernelIdeal := fun m ρ _ => Cert.KernelIdeal.Frame.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the specification's arrays of their arguments, and the arguments agree. -/
theorem algebraic : Cert.algebraic_KernelIdeal_ReferenceIdeal := by
  intro m ρ m' ρ' hpre hagree
  have hin : ∀ c, Cert.RefValue.inp m' c = Cert.KernelIdeal.Val.inp m c := fun c => by
    obtain ⟨h0, h1, h2, h3, h4, h5, h6, h7, h8, h9, h10, h11, h12⟩ := hagree c
    unfold Cert.RefValue.inp Cert.KernelIdeal.Val.inp
    rw [h0, h1, h2, h3, h4, h5, h6, h7, h8, h9, h10, h11, h12]
  have hfacts : ∀ c, Cert.Spec.SendersInRange (Cert.KernelIdeal.Val.inp m c) ∧ Cert.Spec.EveryNodeReceives (Cert.KernelIdeal.Val.inp m c) :=
    fun c => Cert.PreFacts.of_pre (Cert.KernelIdeal.Val.inp m c) (hpre c)
  refine ⟨fun c => Cert.Spec.outSArr (Cert.KernelIdeal.Val.inp m c), fun c => Cert.Spec.outVArr (Cert.KernelIdeal.Val.inp m c),
    Cert.KernelIdeal.Val.run_spec m ρ (fun c => (hfacts c).1) (fun c => (hfacts c).2), ?_⟩
  refine (θ_run Cert.ReferenceIdeal.defs _ _).mono (fun _ h c => ?_)
    (Cert.RefValue.run_spec m' ρ' (fun c => by rw [hin c]; exact (hfacts c).1))
  have hc := h c
  rw [hin c] at hc
  exact hc

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
